-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512 : Shape := ⟨1, ![512]⟩
abbrev S64x1792 : Shape := ⟨2, ![64, 1792]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S64x1792 : S_.BroadcastsInDim S64x1792 (![] : Fin 0 → Fin S64x1792.rank)
  reducesTo_S64x1792_S_d0_1 : S64x1792.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x1792 .f32) (main_arg8 : FVec F S64 .f32) (main_v33 : IVec S_ 1) : IVec S_ 1 :=
  let main_v34 : FVec F S64x1792 .f32 := Host.absf main_arg7
  let main_cst_12 : FVec F S_ .f32 := constant S_ .f32 0x7F800000#32
  let main_v35 : FVec F S64x1792 .f32 := broadcastInDim S64x1792 ![] bcast_S_S64x1792 main_cst_12
  let main_v36 : IVec S64x1792 1 := cmpf .olt main_v34 main_v35
  let main_c_13 : IVec S_ 1 := constantI S_ 1 1#1
  let main_v37 : IVec S_ 1 := (fun x v => Host.reduce IntOp.andi x v reducesTo_S64x1792_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S256 .f32) (main_arg5 : FVec F S512 .f32) (main_arg6 : FVec F S512 .f32) (main_arg7 : FVec F S64x1792 .f32) (main_arg8 : FVec F S64 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x8192 .f32) (main_arg2 : FVec F S8192x8192 .f32) (main_arg3 : FVec F S256x512 .f32) (main_arg4 : FVec F S256 .f32) (main_arg5 : FVec F S512 .f32) (main_arg6 : FVec F S512 .f32) (main_arg7 : FVec F S64x1792 .f32) (main_arg8 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512 : Shape := ⟨1, ![512]⟩
abbrev S64x1792 : Shape := ⟨2, ![64, 1792]⟩
abbrev S64 : Shape := ⟨1, ![64]⟩
abbrev S512x256 : Shape := ⟨2, ![512, 256]⟩
abbrev S1x256 : Shape := ⟨2, ![1, 256]⟩
abbrev S8192x256 : Shape := ⟨2, ![8192, 256]⟩
abbrev S1024x512 : Shape := ⟨2, ![1024, 512]⟩
abbrev S1024x256 : Shape := ⟨2, ![1024, 256]⟩
abbrev S1024x1024 : Shape := ⟨2, ![1024, 1024]⟩
abbrev S_ : Shape := ⟨0, ![]⟩
abbrev S1x512 : Shape := ⟨2, ![1, 512]⟩
abbrev S8192x1024 : Shape := ⟨2, ![8192, 1024]⟩
abbrev S64x256 : Shape := ⟨2, ![64, 256]⟩
abbrev S256x64 : Shape := ⟨2, ![256, 64]⟩
abbrev S64x512 : Shape := ⟨2, ![64, 512]⟩
abbrev S512x64 : Shape := ⟨2, ![512, 64]⟩
abbrev S64x1024 : Shape := ⟨2, ![64, 1024]⟩
abbrev S1024x64 : Shape := ⟨2, ![1024, 64]⟩
abbrev S1x64 : Shape := ⟨2, ![1, 64]⟩
abbrev S8192x64 : Shape := ⟨2, ![8192, 64]⟩

abbrev nBuf : Space → Nat
  | .hbm => 66
  | .vmem => 38
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S256x512, .f32⟩
  | .hbm, ⟨4, _⟩ => ⟨S256, .f32⟩
  | .hbm, ⟨5, _⟩ => ⟨S512, .f32⟩
  | .hbm, ⟨6, _⟩ => ⟨S512, .f32⟩
  | .hbm, ⟨7, _⟩ => ⟨S64x1792, .f32⟩
  | .hbm, ⟨8, _⟩ => ⟨S64, .f32⟩
  | .hbm, ⟨9, _⟩ => ⟨S512x256, .f32⟩
  | .hbm, ⟨10, _⟩ => ⟨S1x256, .f32⟩
  | .hbm, ⟨11, _⟩ => ⟨S8192x256, .f32⟩
  | .hbm, ⟨12, _⟩ => ⟨S8192x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S8192x1024, .f32⟩
  | .hbm, ⟨58, _⟩ => ⟨S64x256, .f32⟩
  | .hbm, ⟨59, _⟩ => ⟨S256x64, .f32⟩
  | .hbm, ⟨60, _⟩ => ⟨S64x512, .f32⟩
  | .hbm, ⟨61, _⟩ => ⟨S512x64, .f32⟩
  | .hbm, ⟨62, _⟩ => ⟨S64x1024, .f32⟩
  | .hbm, ⟨63, _⟩ => ⟨S1024x64, .f32⟩
  | .hbm, ⟨64, _⟩ => ⟨S1x64, .f32⟩
  | .hbm, ⟨65, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S1024x512, .f32⟩
  | .local _ .vmem, ⟨13, _⟩ => ⟨S1024x512, .f32⟩
  | .local _ .vmem, ⟨14, _⟩ => ⟨S1024x256, .f32⟩
  | .local _ .vmem, ⟨15, _⟩ => ⟨S1024x256, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x512, .f32⟩
  | .local _ .vmem, ⟨21, _⟩ => ⟨S1024x512, .f32⟩
  | .local _ .vmem, ⟨22, _⟩ => ⟨S1024x1024, .f32⟩
  | .local _ .vmem, ⟨23, _⟩ => ⟨S1024x1024, .f32⟩
  | .local _ .vmem, ⟨24, _⟩ => ⟨S1024x512, .f32⟩
  | .local _ .vmem, ⟨25, _⟩ => ⟨S1024x512, .f32⟩
  | .local _ .vmem, ⟨26, _⟩ => ⟨S1024x256, .f32⟩
  | .local _ .vmem, ⟨27, _⟩ => ⟨S1024x256, .f32⟩
  | .local _ .vmem, ⟨28, _⟩ => ⟨S1024x512, .f32⟩
  | .local _ .vmem, ⟨29, _⟩ => ⟨S1024x512, .f32⟩
  | .local _ .vmem, ⟨30, _⟩ => ⟨S1024x1024, .f32⟩
  | .local _ .vmem, ⟨31, _⟩ => ⟨S1024x1024, .f32⟩
  | .local _ .vmem, ⟨32, _⟩ => ⟨S256x64, .f32⟩
  | .local _ .vmem, ⟨33, _⟩ => ⟨S512x64, .f32⟩
  | .local _ .vmem, ⟨34, _⟩ => ⟨S1024x64, .f32⟩
  | .local _ .vmem, ⟨35, _⟩ => ⟨S1x64, .f32⟩
  | .local _ .vmem, ⟨36, _⟩ => ⟨S1024x64, .f32⟩
  | .local _ .vmem, ⟨37, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc2_scratch1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_15 : BitVec 32 := 0#32
  let v24 : BitVec 1 := Scalar.cmpi .ne v23 c0_i32_15
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_15 : BitVec 32 := 0#32
  let v24 : BitVec 1 := Scalar.cmpi .ne v23 c0_i32_15
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  transposes_S256x512_S512x256_1_0 : S256x512.Transposes [1, 0] S512x256
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  shapeCasts_S1024x512_S1024x512 : S1024x512.ShapeCasts S1024x512
  inb_S1024x1024_S1024x512_0_0 : ∀ a, (![0, 0] : Fin 2 → Nat) a + S1024x512.size a ≤ S1024x1024.size a
  inb_S1024x1024_S1024x512_0_512 : ∀ a, (![0, 512] : Fin 2 → Nat) a + S1024x512.size a ≤ S1024x1024.size a
  slices_S64x1792_S64x256_0_0 : S64x1792.Slices ![0, 0] S64x256
  transposes_S64x256_S256x64_1_0 : S64x256.Transposes [1, 0] S256x64
  slices_S64x1792_S64x512_0_256 : S64x1792.Slices ![0, 256] S64x512
  transposes_S64x512_S512x64_1_0 : S64x512.Transposes [1, 0] S512x64
  slices_S64x1792_S64x1024_0_768 : S64x1792.Slices ![0, 768] S64x1024
  transposes_S64x1024_S1024x64_1_0 : S64x1024.Transposes [1, 0] S1024x64
  shapeCasts_S64_S1x64 : S64.ShapeCasts S1x64
  shapeCasts_S1024x1024_S1024x1024 : S1024x1024.ShapeCasts S1024x1024
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x1024_S1024x512_S1024x512_1_0_0_1_n_n_wf : DotDims.WF S1024x1024 S1024x512 S1024x512 [1] [0] [0] [1] [] []
  dot_S1024x256_S256x64_S1024x64_1_0_0_1_n_n_wf : DotDims.WF S1024x256 S256x64 S1024x64 [1] [0] [0] [1] [] []
  dot_S1024x512_S512x64_S1024x64_1_0_0_1_n_n_wf : DotDims.WF S1024x512 S512x64 S1024x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .f32 = 32 ∨ (Rect.block (s := S8192x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x512.size a
  hwx2_2 : ∀ i : grid2.Coords, EltTy.bits .f32 = 32 ∨ (Rect.block (s := S8192x512) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .f32 = 32 ∨ (Rect.block (s := S8192x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .f32 = 32 ∨ (Rect.block (s := S8192x512) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x1024.size a
  hwx3_2 : ∀ i : grid3.Coords, EltTy.bits .f32 = 32 ∨ (Rect.block (s := S8192x1024) S1024x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x64.size a ≤ S512x64.size a
  hwx3_4 : ∀ i : grid3.Coords, EltTy.bits .f32 = 32 ∨ (Rect.block (s := S512x64) S512x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x64.size a ≤ S1024x64.size a
  hwx3_5 : ∀ i : grid3.Coords, EltTy.bits .f32 = 32 ∨ (Rect.block (s := S1024x64) S1024x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x64.size a ≤ S8192x64.size a
  hwx3_7 : ∀ i : grid3.Coords, EltTy.bits .f32 = 32 ∨ (Rect.block (s := S8192x64) S1024x64.size (cc3_transform_7 i) (hinb3_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v2) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S512x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1024x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v31) S1024x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512 : Shape := ⟨1, ![512]⟩
abbrev S64x1792 : Shape := ⟨2, ![64, 1792]⟩
abbrev S64 : Shape := ⟨1, ![64]⟩
abbrev S512x256 : Shape := ⟨2, ![512, 256]⟩
abbrev S8192x256 : Shape := ⟨2, ![8192, 256]⟩
abbrev S1x256 : Shape := ⟨2, ![1, 256]⟩
abbrev S_ : Shape := ⟨0, ![]⟩
abbrev S1x512 : Shape := ⟨2, ![1, 512]⟩
abbrev S8192x1024 : Shape := ⟨2, ![8192, 1024]⟩
abbrev S8192x1792 : Shape := ⟨2, ![8192, 1792]⟩
abbrev S1792x64 : Shape := ⟨2, ![1792, 64]⟩
abbrev S8192x64 : Shape := ⟨2, ![8192, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S256x512, .f32⟩
  | .hbm, ⟨4, _⟩ => ⟨S256, .f32⟩
  | .hbm, ⟨5, _⟩ => ⟨S512, .f32⟩
  | .hbm, ⟨6, _⟩ => ⟨S512, .f32⟩
  | .hbm, ⟨7, _⟩ => ⟨S64x1792, .f32⟩
  | .hbm, ⟨8, _⟩ => ⟨S64, .f32⟩
  | .hbm, ⟨9, _⟩ => ⟨S512x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .i32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S1x512, .f32⟩
  | .hbm, ⟨56, _⟩ => ⟨S8192x512, .f32⟩
  | .hbm, ⟨57, _⟩ => ⟨S8192x512, .f32⟩
  | .hbm, ⟨58, _⟩ => ⟨S1x512, .f32⟩
  | .hbm, ⟨59, _⟩ => ⟨S8192x512, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x1024, .f32⟩
  | .hbm, ⟨67, _⟩ => ⟨S8192x1792, .f32⟩
  | .hbm, ⟨68, _⟩ => ⟨S1792x64, .f32⟩
  | .hbm, ⟨69, _⟩ => ⟨S8192x64, .f32⟩
  | .hbm, ⟨70, _⟩ => ⟨S1x64, .f32⟩
  | .hbm, ⟨71, _⟩ => ⟨S8192x64, .f32⟩
  | .hbm, ⟨72, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_cst_3 : Ref sig .tc := ⟨.hbm, 42, rfl⟩
abbrev main_call1_v12 : Ref sig .tc := ⟨.hbm, 43, rfl⟩
abbrev main_call1_cst_4 : Ref sig .tc := ⟨.hbm, 44, rfl⟩
abbrev main_call1_call0_v0 : Ref sig .tc := ⟨.hbm, 45, rfl⟩
abbrev main_call1_call0_v1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  concatenates_S8192x256_S8192x256_S8192x512_d1 : Shape.Concatenates [S8192x256, S8192x256] S8192x512 1
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  concatenates_S8192x512_S8192x512_S8192x1024_d1 : Shape.Concatenates [S8192x512, S8192x512] S8192x1024 1
  concatenates_S8192x256_S8192x512_S8192x1024_S8192x1792_d1 : Shape.Concatenates [S8192x256, S8192x512, S8192x1024] S8192x1792 1
  transposes_S64x1792_S1792x64_1_0 : S64x1792.Transposes [1, 0] S1792x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x8192_S8192x512_S8192x512_1_0_0_1_n_n_wf : DotDims.WF S8192x8192 S8192x512 S8192x512 [1] [0] [0] [1] [] []
  dot_S8192x1792_S1792x64_S8192x64_1_0_0_1_n_n_wf : DotDims.WF S8192x1792 S1792x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x1792_S1792x64_S8192x64_1_0_0_1_n_n : DotDims S8192x1792 S1792x64 S8192x64 where
  lhsContracting := [1]
  rhsContracting := [0]
  lhsNonContracting := [0]
  rhsNonContracting := [1]
  lhsBatch := []
  rhsBatch := []
  wf := dot_S8192x1792_S1792x64_S8192x64_1_0_0_1_n_n_wf

class Facts : Prop extends Facts₀ where

variable [Facts]
-- ==== Proof.K.Reg0.lean ====
import proofs.«115011_j33217277067916_1_alg».proof.Proof.Gen.Kernel.Launch
import proofs.«115011_j33217277067916_1_alg».proof.Proof.Gen.Kernel.Skeleton
import proofs.«115011_j33217277067916_1_alg».proof.Proof.Gen.Kernel.Points
import Idealize.ShloMosaic.Lib.Pipeline.FrameBody
import Idealize.ShloMosaic.Lib.Tactic
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (x0 : Vec F S1024x512 .f32) (x1 : Vec F S512x256 .f32) (x2 : Vec F S1x256 .f32)

-- The body's one store, of the payload of the three whole-block loads, over the whole output block.
def out0_3 : Vec F S1024x256 .f32 :=
  View.canon [⟨Rect.unit ![0, 0] _ inb_S1024x256_S1024x256_0_0, k0_pay1 (View.ld x0 (Rect.unit ![0, 0] _ inb_S1024x512_S1024x512_0_0))
    (View.ld x1 (Rect.unit ![0, 0] _ inb_S512x256_S512x256_0_0)) (View.ld x2 (Rect.unit ![0, 0] _ inb_S1x256_S1x256_0_0))⟩]

end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

-- What the body finds of each input at point t is that input's block.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;>
    exact fun d => (Dat.before_in_eq_fetched _ _ rfl (fun _ => rfl) (fun _ _ _ => rfl) (fun _ => rfl) t d).trans rfl

-- At any point the body, handed the inputs' blocks, leaves them in place and stores out0_3 of them over the output block.
theorem sound_body0 (c : Dev nD) (t : Fin cfg0.N) :
    iprop((dat0 V c).Φ t.castSucc ∗ (dat0 V c).owesAt () t.castSucc
      ∗ bigSep Finset.univ fun w : Fin cfg0.W => iprop(∃ d, owns c.tc ((cfg0.win w).stage (cfg0.slots t w)) fullShare ((dat0 V c).before w t d)))
    ⊢ wp frame (wpE (defs₀ (F := F)) Variants.none c none) Set.univ (bodyAt0 t) (fun _ => iprop((dat0 V c).Φ t.succ ∗ (dat0 V c).owesAt () t.succ
      ∗ bigSep Finset.univ fun w : Fin cfg0.W => owns c.tc ((cfg0.win w).stage (cfg0.slots t w)) fullShare ((dat0 V c).after w t))) := by
  rw [bigSep_W0, bigSep_W0]
  simp only [before0 V c t]
  rw [show (dat0 V c).Φ t.succ = (dat0 V c).Φ t.castSucc from rfl, show (dat0 V c).owesAt () t.succ = (dat0 V c).owesAt () t.castSucc from rfl]
  dsimp only [dat0]
  generalize iblk0 V c 0 t = x0, iblk0 V c 1 t = x1, iblk0 V c 2 t = x2
  unfold bodyAt0
  simp only [cc0__embed_kernel_eq_skeleton]; unfold cc0__embed_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  subst hf0 hf1 hf2
  sl_exec
  sl_step
  iframe HΦ Ho
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S1024x256.size (by rfl))

theorem body_obligation0 (c : Dev nD) : BodyObligation (dat0 (F := F) V c) (defs₀ (F := F)) Variants.none () Set.univ :=
  sound_body0 V c

end Cert.Kernel.H
end
-- ==== Proof.K.Reg1.Runs.lean ====
import proofs.«115011_j33217277067916_1_alg».proof.Proof.Gen.Kernel.Launch
import proofs.«115011_j33217277067916_1_alg».proof.Proof.Gen.Kernel.Skeleton
import proofs.«115011_j33217277067916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at point `t` of the array `V` gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's two conditions (reduction coordinate 0; reduction coordinate 7), decided over the grid. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S1024x512 .f32 := (Memref.whole cc1_stg3_0 : Memref sig .tc .vmem S1024x512 .f32).view

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x256 .f32 := Memref.whole cc1_scratch0
abbrev scM1_1 : Memref sig .tc .vmem S1024x256 .f32 := Memref.whole cc1_scratch1

abbrev VS1_0 : View sig .tc .vmem S1024x256 .f32 := scM1_0.view
abbrev VS1_1 : View sig .tc .vmem S1024x256 .f32 := scM1_1.view

/-- The class invariant with the two accumulators split off the scoped rest. -/
theorem PhiA1_eq (c : Dev nD) :
    (Pipeline.ΦA spec1 c : sProp 𝕄)
      = iprop(iprop(iprop(iprop((∃ d, owns (c : Thread nD τ) scM1_0 fullShare d)) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.H

end
-- ==== Proof.K.Reg1.RunA.lean ====
import proofs.«115011_j33217277067916_1_alg».proof.Proof.K.Reg1.Runs
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate 0: the body's run on whole memrefs, the accumulators at anything; the pieces its stores leave are the witness. -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x1024 .f32) (x1 : Vec F S1024x1024 .f32) (x2 : Vec F S1024x256 .f32) :
    Σ' (L3 : List (View.Piece (Elt F) S1024x512 .f32)) (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.H

end
-- ==== Proof.K.Reg1.RunB.lean ====
import proofs.«115011_j33217277067916_1_alg».proof.Proof.K.Reg1.RunA
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate strictly inside the run of 8: the body's run over the accumulators as found, with the pieces its stores leave. -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x1024 .f32) (x1 : Vec F S1024x1024 .f32) (x2 : Vec F S1024x256 .f32) (xs0 : Vec F S1024x256 .f32) (xs1 : Vec F S1024x256 .f32) :
    Σ' (L3 : List (View.Piece (Elt F) S1024x512 .f32)) (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.H

end
-- ==== Proof.K.Reg1.RunC.lean ====
import proofs.«115011_j33217277067916_1_alg».proof.Proof.K.Reg1.RunB
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Last reduction coordinate: the body's run over the accumulators as found, which it then stores side by side into the output block. -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x1024 .f32) (x1 : Vec F S1024x1024 .f32) (x2 : Vec F S1024x256 .f32) (xs0 : Vec F S1024x256 .f32) (xs1 : Vec F S1024x256 .f32) :
    Σ' (L3 : List (View.Piece (Elt F) S1024x512 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.H

end
-- ==== Proof.K.Reg1.lean ====
import proofs.«115011_j33217277067916_1_alg».proof.Proof.K.Reg1.RunC
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The output block and the two accumulators that a case's stored pieces leave, read back. -/
def readBack1 (L3 : List (View.Piece (Elt F) S1024x512 .f32)) (LS0 LS1 : List (View.Piece (Elt F) S1024x256 .f32)) :
    Vec F S1024x512 .f32 × Vec F S1024x256 .f32 × Vec F S1024x256 .f32 :=
  (VO1_3.read (Elt F) (VO1_3.writes (Elt F) VO1_3.junk L3), VS1_0.read (Elt F) (VS1_0.writes (Elt F) VS1_0.junk LS0),
    VS1_1.read (Elt F) (VS1_1.writes (Elt F) VS1_1.junk LS1))

section
variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole)

section
variable (hc0 : cond1_0 i) (hc1 : ¬cond1_1 i) (x0 x1 : Vec F S1024x1024 .f32) (x2 : Vec F S1024x256 .f32)
theorem scover1_A_0 (y : S1024x256.Idx) : ∃ pc ∈ (kernelRun1_A c i arg2 harg2 arg3 harg3 arg4 harg4 arg5 harg5 arg6 harg6 arg7 harg7 hc0 hc1 x0 x1 x2).2.1, y ∈ pc.1.set :=
  View.cover_of_tiledL _ S1024x256.size (by sl_kernel_rfl) y
theorem scover1_A_1 (y : S1024x256.Idx) : ∃ pc ∈ (kernelRun1_A c i arg2 harg2 arg3 harg3 arg4 harg4 arg5 harg5 arg6 harg6 arg7 harg7 hc0 hc1 x0 x1 x2).2.2.1, y ∈ pc.1.set :=
  View.cover_of_tiledL _ S1024x256.size (by sl_kernel_rfl) y
def res1_A := readBack1 (F := F) (kernelRun1_A c i arg2 harg2 arg3 harg3 arg4 harg4 arg5 harg5 arg6 harg6 arg7 harg7 hc0 hc1 x0 x1 x2).1 (kernelRun1_A c i arg2 harg2 arg3 harg3 arg4 harg4 arg5 harg5 arg6 harg6 arg7 harg7 hc0 hc1 x0 x1 x2).2.1 (kernelRun1_A c i arg2 harg2 arg3 harg3 arg4 harg4 arg5 harg5 arg6 harg6 arg7 harg7 hc0 hc1 x0 x1 x2).2.2.1
end

section
variable (hc0 : ¬cond1_0 i) (hc1 : ¬cond1_1 i) (x0 x1 : Vec F S1024x1024 .f32) (x2 : Vec F S1024x256 .f32) (xs0 xs1 : Vec F S1024x256 .f32)
theorem scover1_B_0 (y : S1024x256.Idx) : ∃ pc ∈ (kernelRun1_B c i arg2 harg2 arg3 harg3 arg4 harg4 arg5 harg5 arg6 harg6 arg7 harg7 hc0 hc1 x0 x1 x2 xs0 xs1).2.1, y ∈ pc.1.set :=
  View.cover_of_tiledL _ S1024x256.size (by sl_kernel_rfl) y
theorem scover1_B_1 (y : S1024x256.Idx) : ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL _ S1024x256.size (by sl_kernel_rfl) y
def res1_B := readBack1 (F := F) (kernelRun1_B c i arg2 harg2 arg3 harg3 arg4 harg4 arg5 harg5 arg6 harg6 arg7 harg7 hc0 hc1 x0 x1 x2 xs0 xs1).1 (kernelRun1_B c i arg2 harg2 arg3 harg3 arg4 harg4 arg5 harg5 arg6 harg6 arg7 harg7 hc0 hc1 x0 x1 x2 xs0 xs1).2.1 (kernelRun1_B c i arg2 harg2 arg3 harg3 arg4 harg4 arg5 harg5 arg6 harg6 arg7 harg7 hc0 hc1 x0 x1 x2 xs0 xs1).2.2.1
end

section
variable (hc0 : ¬cond1_0 i) (hc1 : cond1_1 i) (x0 x1 : Vec F S1024x1024 .f32) (x2 : Vec F S1024x256 .f32) (xs0 xs1 : Vec F S1024x256 .f32)
theorem cover1_C_3 (y : S1024x512.Idx) : ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1024x256.size (by sl_kernel_rfl) y
theorem scover1_C_0 (y : S1024x256.Idx) : ∃ pc ∈ (kernelRun1_C c i arg2 harg2 arg3 harg3 arg4 harg4 arg5 harg5 arg6 harg6 arg7 harg7 hc0 hc1 x0 x1 x2 xs0 xs1).2.1, y ∈ pc.1.set :=
  View.cover_of_tiledL _ S1024x256.size (by sl_kernel_rfl) y
theorem scover1_C_1 (y : S1024x256.Idx) : ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL _ S1024x256.size (by sl_kernel_rfl) y
def res1_C := readBack1 (F := F) (kernelRun1_C c i arg2 harg2 arg3 harg3 arg4 harg4 arg5 harg5 arg6 harg6 arg7 harg7 hc0 hc1 x0 x1 x2 xs0 xs1).1 (kernelRun1_C c i arg2 harg2 arg3 harg3 arg4 harg4 arg5 harg5 arg6 harg6 arg7 harg7 hc0 hc1 x0 x1 x2 xs0 xs1).2.1 (kernelRun1_C c i arg2 harg2 arg3 harg3 arg4 harg4 arg5 harg5 arg6 harg6 arg7 harg7 hc0 hc1 x0 x1 x2 xs0 xs1).2.2.1
end

end

/-- A function of the body's six memrefs, at the ones the body is called with at point `t`. -/
abbrev at1 {α : Type} (t : Fin cfg1.N) (f : (a2 : Memref sig .tc .vmem S1024x1024 .f32) → a2.IsWhole → (a3 : Memref sig .tc .vmem S1024x1024 .f32) → a3.IsWhole → (a4 : Memref sig .tc .vmem S1024x256 .f32) → a4.IsWhole → (a5 : Memref sig .tc .vmem S1024x512 .f32) → a5.IsWhole → (a6 : Memref sig .tc .vmem S1024x256 .f32) → a6.IsWhole → (a7 : Memref sig .tc .vmem S1024x256 .f32) → a7.IsWhole → α) : α :=
  f (ms1_0 t) (hs1_0 t) (ms1_1 t) (hs1_1 t) (ms1_2 t) (hs1_2 t) (ms1_3 t) (hs1_3 t) scM1_0 (Memref.isWhole_whole _) scM1_1 (Memref.isWhole_whole _)

section
variable (c : Dev nD) (t : Fin cfg1.N)
/-- Each case's results at point `t`, over the accumulators `s` of the point before (cases B and C). -/
abbrev ptA1 (h0 : t.val % 8 = 0) (h1 : ¬t.val % 8 = 7) :=
  at1 t (res1_A (F := F) c (grid1.coords t)) ((hcond1_0 t).mpr h0) (fun h => h1 ((hcond1_1 t).mp h)) (iblk1 V c 0 t) (iblk1 V c 1 t) (iblk1 V c 2 t)
abbrev ptB1 (h0 : ¬t.val % 8 = 0) (h1 : ¬t.val % 8 = 7) (s : Vec F S1024x256 .f32 × Vec F S1024x256 .f32) :=
  at1 t (res1_B (F := F) c (grid1.coords t)) (fun h => h0 ((hcond1_0 t).mp h)) (fun h => h1 ((hcond1_1 t).mp h)) (iblk1 V c 0 t) (iblk1 V c 1 t) (iblk1 V c 2 t) s.1 s.2
abbrev ptC1 (h0 : ¬t.val % 8 = 0) (h1 : t.val % 8 = 7) (s : Vec F S1024x256 .f32 × Vec F S1024x256 .f32) :=
  at1 t (res1_C (F := F) c (grid1.coords t)) (fun h => h0 ((hcond1_0 t).mp h)) ((hcond1_1 t).mpr h1) (iblk1 V c 0 t) (iblk1 V c 1 t) (iblk1 V c 2 t) s.1 s.2
end

/-- The output block and the two accumulators after position `n`: the case its reduction coordinate selects, over position `n - 1`. -/
def outsAt1 (c : Dev nD) : (n : ℕ) → n < cfg1.N → Vec F S1024x512 .f32 × Vec F S1024x256 .f32 × Vec F S1024x256 .f32
  | 0, hn => ptA1 V c ⟨0, hn⟩ (Nat.zero_mod _) (fun h : 0 % 8 = 7 => by omega)
  | n + 1, hn =>
    if h0 : (n + 1) % 8 = 0 then ptA1 V c ⟨n + 1, hn⟩ h0 (fun h : (n + 1) % 8 = 7 => by omega)
    else if h1 : (n + 1) % 8 = 7 then ptC1 V c ⟨n + 1, hn⟩ h0 h1 (outsAt1 c n (Nat.lt_of_succ_lt hn)).2
    else ptB1 V c ⟨n + 1, hn⟩ h0 h1 (outsAt1 c n (Nat.lt_of_succ_lt hn)).2

/-- The accumulators as the point before `t` left them. -/
abbrev prev1 (c : Dev nD) (t : Fin cfg1.N) := (outsAt1 V c (t.val - 1) (Nat.lt_of_le_of_lt (Nat.sub_le _ _) t.isLt)).2

theorem outsAt1_A (c : Dev nD) (t : Fin cfg1.N) (h0 : t.val % 8 = 0) (h1 : ¬t.val % 8 = 7) :
    outsAt1 V c t.val t.isLt = ptA1 V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = ptB1 V c t h0 h1 (prev1 V c t) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC1 V c t h0 h1 (prev1 V c t) := by
  obtain ⟨n, hn⟩ := t
  cases n with
  | zero => exact absurd (Nat.zero_mod _) h0
  | succ n => exact (dif_neg h0).trans ((dif_pos h1).trans rfl)

/-- The region invariant with the two accumulators at `s`. -/
abbrev accs1 (c : Dev nD) (s : Vec F S1024x256 .f32 × Vec F S1024x256 .f32) : sProp 𝕄 :=
  iprop(iprop(iprop(owns (c : Thread nD τ) scM1_0 fullShare s.1 ∗ owns (c : Thread nD τ) scM1_1 fullShare s.2)
      ∗ Pipeline.scopedRestBut (Ix := Unit) (Name := ℕ) (U := UR sig nD τ) (Lvl := ℕ) (Val := Elt F) spec1 c [cc1_scratch0, cc1_scratch1]) ∗ (∃ r, prngReg c r))

/-- The region invariant before position `n`: the accumulators at what position `n - 1` left, at anything before the first. -/
def PhiS1 (c : Dev nD) : (n : ℕ) → n ≤ cfg1.N → sProp 𝕄
  | 0, _ => Pipeline.ΦA spec1 c
  | n + 1, hn => accs1 c (outsAt1 V c n hn).2

theorem PhiS1_succ (c : Dev nD) (n : ℕ) (hn : n < cfg1.N) : PhiS1 V c (n + 1) hn = accs1 c (outsAt1 V c n hn).2 := rfl

theorem PhiS1_pos (c : Dev nD) (n : ℕ) (h : n ≤ cfg1.N) (hz : n ≠ 0) :
    PhiS1 V c n h = accs1 c (outsAt1 V c (n - 1) (by omega)).2 := by
  cases n with
  | zero => exact absurd rfl hz
  | succ n => rfl

/-- At every position the invariant gives the class invariant back: the accumulators' named contents are forgotten. -/
theorem PhiS1_le (c : Dev nD) (n : ℕ) (h : n ≤ cfg1.N) : PhiS1 V c n h ⊢ Pipeline.ΦA spec1 c := by
  cases n with
  | zero => exact Entails.refl _
  | succ n =>
    rw [PhiS1_succ, PhiA1_eq]
    unfold accs1
    iintro ⟨⟨⟨HS0, HS1⟩, HR⟩, Hg⟩
    isplitl [HS0 HS1 HR]
    · isplitl [HS0 HS1]
      · isplitl [HS0]
        · iexists _; iexact HS0
        · iexists _; iexact HS1
      · iexact HR
    · iexact Hg

/-- The region's proof data: each input at its block, the output at `outsAt1`'s first component, the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- What the body finds of each input at point `t` is that input's block. -/
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) := by
  refine ⟨?_, ?_, ?_⟩ <;>
    exact fun d => (Dat.before_in_eq_fetched _ _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 600000 in
/-- The body at any point, by the case its reduction coordinate selects. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold ptA1 at1 res1_A readBack1 accs1; (try dsimp only)
    refine (BIClass.sep_mono (PhiS1_le V c _ _) (Entails.refl _)).trans ?_
    rw [PhiA1_eq]
    iintro ⟨⟨⟨⟨HS0, HS1⟩, HR⟩, Hg⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
    iframe H0 H1 H2 H3 HS0 HS1
    iintro ⟨H0, H1, H2, H3, ⟨%es0, HS0⟩, ⟨%es1, HS1⟩⟩
    iframe HR Hg Ho H0 H1 H2
    isplitr [H3]
    · isplitl [HS0]
      · unfold owns; iexists _; isplitr
        swap; · iexact HS0
        ipureintro; exact View.read_writes_of_cover _ _ _ _ _ (scover1_A_0 c _ _ _ _ _ _ _ _ _ _ _ _ _ _ _ _ _ _)
      · unfold owns; iexists _; isplitr
        swap; · iexact HS1
        ipureintro; exact View.read_writes_of_cover _ _ _ _ _ (scover1_A_1 c _ _ _ _ _ _ _ _ _ _ _ _ _ _ _ _ _ _)
    · iexists _; iexact H3
  · have hz : t.val ≠ 0 := fun e => h0 (by rw [e])
    rw [PhiS1_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold ptC1 at1 res1_C readBack1 accs1 prev1; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      iframe H0 H1 H2 HS0 HS1
      isplitl [H3]; · iexists _; iexact H3
      iintro ⟨H0, H1, H2, ⟨%e3, H3⟩, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover1_C_0 c _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _)
      · unfold owns; iexists _; isplitr
        swap; · iexact H3
        ipureintro; exact View.read_writes_of_cover _ _ _ _ _ (cover1_C_3 c _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold ptB1 at1 res1_B readBack1 accs1 prev1; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      iframe H0 H1 H2 H3 HS0 HS1
      iintro ⟨H0, H1, H2, H3, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _)
      · iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl]
  exact Entails.refl _

theorem hout1 (c : Dev nD) : (dat1 V c).Φ (Fin.last cfg1.N) ⊢ Pipeline.ΦA spec1 c :=
  show PhiS1 V c (Fin.last cfg1.N).val (Nat.le_of_lt_succ (Fin.last cfg1.N).isLt) ⊢ _ from PhiS1_le V c _ _

end Cert.Kernel.H

end
-- ==== Proof.K.Reg2.Runs.lean ====
import proofs.«115011_j33217277067916_1_alg».proof.Proof.Gen.Kernel.Launch
import proofs.«115011_j33217277067916_1_alg».proof.Proof.Gen.Kernel.Skeleton
import proofs.«115011_j33217277067916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at point `t` of the array `V` gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's two conditions (reduction coordinate 0; reduction coordinate 7), decided over the grid. -/
abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3_A : ∀ t : Fin cfg2.N, cond2_0 (grid2.coords t) → ¬cond2_1 (grid2.coords t) → cfg2.idle 3 (grid2.coords t) = true := by decide +kernel

theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel

theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

abbrev VO2_3 : View sig .tc .vmem S1024x1024 .f32 := (Memref.whole cc2_stg3_0 : Memref sig .tc .vmem S1024x1024 .f32).view

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

abbrev scM2_0 : Memref sig .tc .vmem S1024x512 .f32 := Memref.whole cc2_scratch0
abbrev scM2_1 : Memref sig .tc .vmem S1024x512 .f32 := Memref.whole cc2_scratch1

abbrev VS2_0 : View sig .tc .vmem S1024x512 .f32 := scM2_0.view
abbrev VS2_1 : View sig .tc .vmem S1024x512 .f32 := scM2_1.view

/-- The class invariant with the two accumulators split off the scoped rest. -/
theorem PhiA2_eq (c : Dev nD) :
    (Pipeline.ΦA spec2 c : sProp 𝕄)
      = iprop(iprop(iprop(iprop((∃ d, owns (c : Thread nD τ) scM2_0 fullShare d)) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.H

end
-- ==== Proof.K.Reg2.RunA.lean ====
import proofs.«115011_j33217277067916_1_alg».proof.Proof.K.Reg2.Runs
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate 0: the body's run on whole memrefs, the accumulators at anything; the pieces its stores leave are the witness. -/
noncomputable def kernelRun2_A (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole) (hc0 : cond2_0 i) (hc1 : ¬cond2_1 i)
    (x0 : Vec F S1024x1024 .f32) (x1 : Vec F S1024x1024 .f32) (x2 : Vec F S1024x512 .f32) :
    Σ' (L3 : List (View.Piece (Elt F) S1024x1024 .f32)) (LS0 : List (View.Piece (Elt F) S1024x512 .f32)), { LS1 : List (View.Piece (Elt F) S1024x512 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.H

end
-- ==== Proof.K.Reg2.RunB.lean ====
import proofs.«115011_j33217277067916_1_alg».proof.Proof.K.Reg2.RunA
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate strictly inside the run of 8: the body's run over the accumulators as found, with the pieces its stores leave. -/
noncomputable def kernelRun2_B (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole) (hc0 : ¬cond2_0 i) (hc1 : ¬cond2_1 i)
    (x0 : Vec F S1024x1024 .f32) (x1 : Vec F S1024x1024 .f32) (x2 : Vec F S1024x512 .f32) (xs0 : Vec F S1024x512 .f32) (xs1 : Vec F S1024x512 .f32) :
    Σ' (L3 : List (View.Piece (Elt F) S1024x1024 .f32)) (LS0 : List (View.Piece (Elt F) S1024x512 .f32)), { LS1 : List (View.Piece (Elt F) S1024x512 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.H

end
-- ==== Proof.K.Reg2.RunC.lean ====
import proofs.«115011_j33217277067916_1_alg».proof.Proof.K.Reg2.RunB
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Last reduction coordinate: the body's run over the accumulators as found, which it then stores side by side into the output block. -/
noncomputable def kernelRun2_C (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole) (hc0 : ¬cond2_0 i) (hc1 : cond2_1 i)
    (x0 : Vec F S1024x1024 .f32) (x1 : Vec F S1024x1024 .f32) (x2 : Vec F S1024x512 .f32) (xs0 : Vec F S1024x512 .f32) (xs1 : Vec F S1024x512 .f32) :
    Σ' (L3 : List (View.Piece (Elt F) S1024x1024 .f32)) (LS0 : List (View.Piece (Elt F) S1024x512 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.H

end
-- ==== Proof.K.Reg2.lean ====
import proofs.«115011_j33217277067916_1_alg».proof.Proof.K.Reg2.RunC
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The output block and the two accumulators that a case's stored pieces leave, read back. -/
def readBack2 (L3 : List (View.Piece (Elt F) S1024x1024 .f32)) (LS0 LS1 : List (View.Piece (Elt F) S1024x512 .f32)) :
    Vec F S1024x1024 .f32 × Vec F S1024x512 .f32 × Vec F S1024x512 .f32 :=
  (VO2_3.read (Elt F) (VO2_3.writes (Elt F) VO2_3.junk L3), VS2_0.read (Elt F) (VS2_0.writes (Elt F) VS2_0.junk LS0),
    VS2_1.read (Elt F) (VS2_1.writes (Elt F) VS2_1.junk LS1))

section
variable (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole)

section
variable (hc0 : cond2_0 i) (hc1 : ¬cond2_1 i) (x0 x1 : Vec F S1024x1024 .f32) (x2 : Vec F S1024x512 .f32)
theorem scover2_A_0 (y : S1024x512.Idx) : ∃ pc ∈ (kernelRun2_A c i arg2 harg2 arg3 harg3 arg4 harg4 arg5 harg5 arg6 harg6 arg7 harg7 hc0 hc1 x0 x1 x2).2.1, y ∈ pc.1.set :=
  View.cover_of_tiledL _ S1024x512.size (by sl_kernel_rfl) y
theorem scover2_A_1 (y : S1024x512.Idx) : ∃ pc ∈ (kernelRun2_A c i arg2 harg2 arg3 harg3 arg4 harg4 arg5 harg5 arg6 harg6 arg7 harg7 hc0 hc1 x0 x1 x2).2.2.1, y ∈ pc.1.set :=
  View.cover_of_tiledL _ S1024x512.size (by sl_kernel_rfl) y
def res2_A := readBack2 (F := F) (kernelRun2_A c i arg2 harg2 arg3 harg3 arg4 harg4 arg5 harg5 arg6 harg6 arg7 harg7 hc0 hc1 x0 x1 x2).1 (kernelRun2_A c i arg2 harg2 arg3 harg3 arg4 harg4 arg5 harg5 arg6 harg6 arg7 harg7 hc0 hc1 x0 x1 x2).2.1 (kernelRun2_A c i arg2 harg2 arg3 harg3 arg4 harg4 arg5 harg5 arg6 harg6 arg7 harg7 hc0 hc1 x0 x1 x2).2.2.1
end

section
variable (hc0 : ¬cond2_0 i) (hc1 : ¬cond2_1 i) (x0 x1 : Vec F S1024x1024 .f32) (x2 : Vec F S1024x512 .f32) (xs0 xs1 : Vec F S1024x512 .f32)
theorem scover2_B_0 (y : S1024x512.Idx) : ∃ pc ∈ (kernelRun2_B c i arg2 harg2 arg3 harg3 arg4 harg4 arg5 harg5 arg6 harg6 arg7 harg7 hc0 hc1 x0 x1 x2 xs0 xs1).2.1, y ∈ pc.1.set :=
  View.cover_of_tiledL _ S1024x512.size (by sl_kernel_rfl) y
theorem scover2_B_1 (y : S1024x512.Idx) : ∃ pc ∈ (kernelRun2_B c i arg2 harg2 arg3 harg3 arg4 harg4 arg5 harg5 arg6 harg6 arg7 harg7 hc0 hc1 x0 x1 x2 xs0 xs1).2.2.1, y ∈ pc.1.set :=
  View.cover_of_tiledL _ S1024x512.size (by sl_kernel_rfl) y
def res2_B := readBack2 (F := F) (kernelRun2_B c i arg2 harg2 arg3 harg3 arg4 harg4 arg5 harg5 arg6 harg6 arg7 harg7 hc0 hc1 x0 x1 x2 xs0 xs1).1 (kernelRun2_B c i arg2 harg2 arg3 harg3 arg4 harg4 arg5 harg5 arg6 harg6 arg7 harg7 hc0 hc1 x0 x1 x2 xs0 xs1).2.1 (kernelRun2_B c i arg2 harg2 arg3 harg3 arg4 harg4 arg5 harg5 arg6 harg6 arg7 harg7 hc0 hc1 x0 x1 x2 xs0 xs1).2.2.1
end

section
variable (hc0 : ¬cond2_0 i) (hc1 : cond2_1 i) (x0 x1 : Vec F S1024x1024 .f32) (x2 : Vec F S1024x512 .f32) (xs0 xs1 : Vec F S1024x512 .f32)
theorem cover2_C_3 (y : S1024x1024.Idx) : ∃ pc ∈ (kernelRun2_C c i arg2 harg2 arg3 harg3 arg4 harg4 arg5 harg5 arg6 harg6 arg7 harg7 hc0 hc1 x0 x1 x2 xs0 xs1).1, y ∈ pc.1.set :=
  View.cover_of_tiledL (kernelRun2_C c i arg2 harg2 arg3 harg3 arg4 harg4 arg5 harg5 arg6 harg6 arg7 harg7 hc0 hc1 x0 x1 x2 xs0 xs1).1 S1024x512.size (by sl_kernel_rfl) y
theorem scover2_C_0 (y : S1024x512.Idx) : ∃ pc ∈ (kernelRun2_C c i arg2 harg2 arg3 harg3 arg4 harg4 arg5 harg5 arg6 harg6 arg7 harg7 hc0 hc1 x0 x1 x2 xs0 xs1).2.1, y ∈ pc.1.set :=
  View.cover_of_tiledL _ S1024x512.size (by sl_kernel_rfl) y
theorem scover2_C_1 (y : S1024x512.Idx) : ∃ pc ∈ (kernelRun2_C c i arg2 harg2 arg3 harg3 arg4 harg4 arg5 harg5 arg6 harg6 arg7 harg7 hc0 hc1 x0 x1 x2 xs0 xs1).2.2.1, y ∈ pc.1.set :=
  View.cover_of_tiledL _ S1024x512.size (by sl_kernel_rfl) y
def res2_C := readBack2 (F := F) (kernelRun2_C c i arg2 harg2 arg3 harg3 arg4 harg4 arg5 harg5 arg6 harg6 arg7 harg7 hc0 hc1 x0 x1 x2 xs0 xs1).1 (kernelRun2_C c i arg2 harg2 arg3 harg3 arg4 harg4 arg5 harg5 arg6 harg6 arg7 harg7 hc0 hc1 x0 x1 x2 xs0 xs1).2.1 (kernelRun2_C c i arg2 harg2 arg3 harg3 arg4 harg4 arg5 harg5 arg6 harg6 arg7 harg7 hc0 hc1 x0 x1 x2 xs0 xs1).2.2.1
end

end

/-- A function of the body's six memrefs, at the ones the body is called with at point `t`. -/
abbrev at2 {α : Type} (t : Fin cfg2.N) (f : (a2 : Memref sig .tc .vmem S1024x1024 .f32) → a2.IsWhole → (a3 : Memref sig .tc .vmem S1024x1024 .f32) → a3.IsWhole → (a4 : Memref sig .tc .vmem S1024x512 .f32) → a4.IsWhole → (a5 : Memref sig .tc .vmem S1024x1024 .f32) → a5.IsWhole → (a6 : Memref sig .tc .vmem S1024x512 .f32) → a6.IsWhole → (a7 : Memref sig .tc .vmem S1024x512 .f32) → a7.IsWhole → α) : α :=
  f (ms2_0 t) (hs2_0 t) (ms2_1 t) (hs2_1 t) (ms2_2 t) (hs2_2 t) (ms2_3 t) (hs2_3 t) scM2_0 (Memref.isWhole_whole _) scM2_1 (Memref.isWhole_whole _)

section
variable (c : Dev nD) (t : Fin cfg2.N)
/-- Each case's results at point `t`, over the accumulators `s` of the point before (cases B and C). -/
abbrev ptA2 (h0 : t.val % 8 = 0) (h1 : ¬t.val % 8 = 7) :=
  at2 t (res2_A (F := F) c (grid2.coords t)) ((hcond2_0 t).mpr h0) (fun h => h1 ((hcond2_1 t).mp h)) (iblk2 V c 0 t) (iblk2 V c 1 t) (iblk2 V c 2 t)
abbrev ptB2 (h0 : ¬t.val % 8 = 0) (h1 : ¬t.val % 8 = 7) (s : Vec F S1024x512 .f32 × Vec F S1024x512 .f32) :=
  at2 t (res2_B (F := F) c (grid2.coords t)) (fun h => h0 ((hcond2_0 t).mp h)) (fun h => h1 ((hcond2_1 t).mp h)) (iblk2 V c 0 t) (iblk2 V c 1 t) (iblk2 V c 2 t) s.1 s.2
abbrev ptC2 (h0 : ¬t.val % 8 = 0) (h1 : t.val % 8 = 7) (s : Vec F S1024x512 .f32 × Vec F S1024x512 .f32) :=
  at2 t (res2_C (F := F) c (grid2.coords t)) (fun h => h0 ((hcond2_0 t).mp h)) ((hcond2_1 t).mpr h1) (iblk2 V c 0 t) (iblk2 V c 1 t) (iblk2 V c 2 t) s.1 s.2
end

/-- The output block and the two accumulators after position `n`: the case its reduction coordinate selects, over position `n - 1`. -/
def outsAt2 (c : Dev nD) : (n : ℕ) → n < cfg2.N → Vec F S1024x1024 .f32 × Vec F S1024x512 .f32 × Vec F S1024x512 .f32
  | 0, hn => ptA2 V c ⟨0, hn⟩ (Nat.zero_mod _) (fun h : 0 % 8 = 7 => by omega)
  | n + 1, hn =>
    if h0 : (n + 1) % 8 = 0 then ptA2 V c ⟨n + 1, hn⟩ h0 (fun h : (n + 1) % 8 = 7 => by omega)
    else if h1 : (n + 1) % 8 = 7 then ptC2 V c ⟨n + 1, hn⟩ h0 h1 (outsAt2 c n (Nat.lt_of_succ_lt hn)).2
    else ptB2 V c ⟨n + 1, hn⟩ h0 h1 (outsAt2 c n (Nat.lt_of_succ_lt hn)).2

/-- The accumulators as the point before `t` left them. -/
abbrev prev2 (c : Dev nD) (t : Fin cfg2.N) := (outsAt2 V c (t.val - 1) (Nat.lt_of_le_of_lt (Nat.sub_le _ _) t.isLt)).2

theorem outsAt2_A (c : Dev nD) (t : Fin cfg2.N) (h0 : t.val % 8 = 0) (h1 : ¬t.val % 8 = 7) :
    outsAt2 V c t.val t.isLt = ptA2 V c t h0 h1 := by
  obtain ⟨n, hn⟩ := t
  cases n with
  | zero => rfl
  | succ n => exact (dif_pos h0).trans rfl

theorem outsAt2_B (c : Dev nD) (t : Fin cfg2.N) (h0 : ¬t.val % 8 = 0) (h1 : ¬t.val % 8 = 7) :
    outsAt2 V c t.val t.isLt = ptB2 V c t h0 h1 (prev2 V c t) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt = ptC2 V c t h0 h1 (prev2 V c t) := by
  obtain ⟨n, hn⟩ := t
  cases n with
  | zero => exact absurd (Nat.zero_mod _) h0
  | succ n => exact (dif_neg h0).trans ((dif_pos h1).trans rfl)

/-- The region invariant with the two accumulators at `s`. -/
abbrev accs2 (c : Dev nD) (s : Vec F S1024x512 .f32 × Vec F S1024x512 .f32) : sProp 𝕄 :=
  iprop(iprop(iprop(owns (c : Thread nD τ) scM2_0 fullShare s.1 ∗ owns (c : Thread nD τ) scM2_1 fullShare s.2)
      ∗ Pipeline.scopedRestBut (Ix := Unit) (Name := ℕ) (U := UR sig nD τ) (Lvl := ℕ) (Val := Elt F) spec2 c [cc2_scratch0, cc2_scratch1]) ∗ (∃ r, prngReg c r))

/-- The region invariant before position `n`: the accumulators at what position `n - 1` left, at anything before the first. -/
def PhiS2 (c : Dev nD) : (n : ℕ) → n ≤ cfg2.N → sProp 𝕄
  | 0, _ => Pipeline.ΦA spec2 c
  | n + 1, hn => accs2 c (outsAt2 V c n hn).2

theorem PhiS2_succ (c : Dev nD) (n : ℕ) (hn : n < cfg2.N) : PhiS2 V c (n + 1) hn = accs2 c (outsAt2 V c n hn).2 := rfl

theorem PhiS2_pos (c : Dev nD) (n : ℕ) (h : n ≤ cfg2.N) (hz : n ≠ 0) :
    PhiS2 V c n h = accs2 c (outsAt2 V c (n - 1) (by omega)).2 := by
  cases n with
  | zero => exact absurd rfl hz
  | succ n => rfl

/-- At every position the invariant gives the class invariant back: the accumulators' named contents are forgotten. -/
theorem PhiS2_le (c : Dev nD) (n : ℕ) (h : n ≤ cfg2.N) : PhiS2 V c n h ⊢ Pipeline.ΦA spec2 c := by
  cases n with
  | zero => exact Entails.refl _
  | succ n =>
    rw [PhiS2_succ, PhiA2_eq]
    unfold accs2
    iintro ⟨⟨⟨HS0, HS1⟩, HR⟩, Hg⟩
    isplitl [HS0 HS1 HR]
    · isplitl [HS0 HS1]
      · isplitl [HS0]
        · iexists _; iexact HS0
        · iexists _; iexact HS1
      · iexact HR
    · iexact Hg

/-- The region's proof data: each input at its block, the output at `outsAt2`'s first component, the invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- What the body finds of each input at point `t` is that input's block. -/
theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) := by
  refine ⟨?_, ?_, ?_⟩ <;>
    exact fun d => (Dat.before_in_eq_fetched _ _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 600000 in
/-- The body at any point, by the case its reduction coordinate selects. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2 V c t]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [PhiS2_castSucc V c t]
  by_cases h0 : t.val % 8 = 0
  · have h1 : ¬t.val % 8 = 7 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold ptA2 at2 res2_A readBack2 accs2; (try dsimp only)
    refine (BIClass.sep_mono (PhiS2_le V c _ _) (Entails.refl _)).trans ?_
    rw [PhiA2_eq]
    iintro ⟨⟨⟨⟨HS0, HS1⟩, HR⟩, Hg⟩, Ho, ⟨%d0, H0⟩, ⟨%d1, H1⟩, ⟨%d2, H2⟩, ⟨%d3, H3⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ Set.univ _)
    iframe H0 H1 H2 H3 HS0 HS1
    iintro ⟨H0, H1, H2, H3, ⟨%es0, HS0⟩, ⟨%es1, HS1⟩⟩
    iframe HR Hg Ho H0 H1 H2
    isplitr [H3]
    · isplitl [HS0]
      · unfold owns; iexists _; isplitr
        swap; · iexact HS0
        ipureintro; exact View.read_writes_of_cover _ _ _ _ _ (scover2_A_0 c _ _ _ _ _ _ _ _ _ _ _ _ _ _ _ _ _ _)
      · unfold owns; iexists _; isplitr
        swap; · iexact HS1
        ipureintro; exact View.read_writes_of_cover _ _ _ _ _ (scover2_A_1 c _ _ _ _ _ _ _ _ _ _ _ _ _ _ _ _ _ _)
    · iexists _; iexact H3
  · have hz : t.val ≠ 0 := fun e => h0 (by rw [e])
    rw [PhiS2_pos V c _ _ hz]
    by_cases h1 : t.val % 8 = 7
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold ptC2 at2 res2_C readBack2 accs2 prev2; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _ _).2.2.2 Set.univ _)
      iframe H0 H1 H2 HS0 HS1
      isplitl [H3]; · iexists _; iexact H3
      iintro ⟨H0, H1, H2, ⟨%e3, H3⟩, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover2_C_0 c _ _ _ _ _ _ _ _ _ _ _ _ _ _ _ _ _ _ _ _)
        · unfold owns; iexists _; isplitr
          swap; · iexact HS1
          ipureintro; exact View.read_writes_of_cover _ _ _ _ _ (scover2_C_1 c _ _ _ _ _ _ _ _ _ _ _ _ _ _ _ _ _ _ _ _)
      · unfold owns; iexists _; isplitr
        swap; · iexact H3
        ipureintro; exact View.read_writes_of_cover _ _ _ _ _ (cover2_C_3 c _ _ _ _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold ptB2 at2 res2_B readBack2 accs2 prev2; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _ _).2.2.2 _ Set.univ _)
      iframe H0 H1 H2 H3 HS0 HS1
      iintro ⟨H0, H1, H2, H3, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover2_B_0 c _ _ _ _ _ _ _ _ _ _ _ _ _ _ _ _ _ _ _ _)
        · unfold owns; iexists _; isplitr
          swap; · iexact HS1
          ipureintro; exact View.read_writes_of_cover _ _ _ _ _ (scover2_B_1 c _ _ _ _ _ _ _ _ _ _ _ _ _ _ _ _ _ _ _ _)
      · iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl]
  exact Entails.refl _

theorem hout2 (c : Dev nD) : (dat2 V c).Φ (Fin.last cfg2.N) ⊢ Pipeline.ΦA spec2 c :=
  show PhiS2 V c (Fin.last cfg2.N).val (Nat.le_of_lt_succ (Fin.last cfg2.N).isLt) ⊢ _ from PhiS2_le V c _ _

end Cert.Kernel.H

end
-- ==== Proof.K.Reg3.lean ====
import proofs.«115011_j33217277067916_1_alg».proof.Proof.Gen.Kernel.Launch
import proofs.«115011_j33217277067916_1_alg».proof.Proof.Gen.Kernel.Skeleton
import proofs.«115011_j33217277067916_1_alg».proof.Proof.Gen.Kernel.Points
import Idealize.ShloMosaic.Lib.Pipeline.FrameBody
import Idealize.ShloMosaic.Lib.Tactic
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable (x0 : Vec F S1024x256 .f32) (x1 : Vec F S1024x512 .f32) (x2 : Vec F S1024x1024 .f32) (x3 : Vec F S256x64 .f32)
  (x4 : Vec F S512x64 .f32) (x5 : Vec F S1024x64 .f32) (x6 : Vec F S1x64 .f32)

-- The body's one store, of the payload of the seven whole-block loads, over the whole output block.
def out3_7 : Vec F S1024x64 .f32 :=
  View.canon [⟨Rect.unit ![0, 0] _ inb_S1024x64_S1024x64_0_0, k3_pay1 (View.ld x0 (Rect.unit ![0, 0] _ inb_S1024x256_S1024x256_0_0))
    (View.ld x1 (Rect.unit ![0, 0] _ inb_S1024x512_S1024x512_0_0)) (View.ld x2 (Rect.unit ![0, 0] _ inb_S1024x1024_S1024x1024_0_0))
    (View.ld x3 (Rect.unit ![0, 0] _ inb_S256x64_S256x64_0_0)) (View.ld x4 (Rect.unit ![0, 0] _ inb_S512x64_S512x64_0_0))
    (View.ld x5 (Rect.unit ![0, 0] _ inb_S1024x64_S1024x64_0_0)) (View.ld x6 (Rect.unit ![0, 0] _ inb_S1x64_S1x64_0_0))⟩]

end

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

-- What the body finds of each input at point t is that input's block.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
    ∧ (∀ d, (dat3 V c).before 3 t d = iblk3 V c 3 t) ∧ (∀ d, (dat3 V c).before 4 t d = iblk3 V c 4 t) ∧ (∀ d, (dat3 V c).before 5 t d = iblk3 V c 5 t)
    ∧ (∀ d, (dat3 V c).before 6 t d = iblk3 V c 6 t) := by
  refine ⟨?_, ?_, ?_, ?_, ?_, ?_, ?_⟩ <;>
    exact fun d => (Dat.before_in_eq_fetched _ _ rfl (fun _ => rfl) (fun _ _ _ => rfl) (fun _ => rfl) t d).trans rfl

-- At any point the body, handed the inputs' blocks, leaves them in place and stores out3_7 of them over the output block.
theorem sound_body3 (c : Dev nD) (t : Fin cfg3.N) :
    iprop((dat3 V c).Φ t.castSucc ∗ (dat3 V c).owesAt () t.castSucc
      ∗ bigSep Finset.univ fun w : Fin cfg3.W => iprop(∃ d, owns c.tc ((cfg3.win w).stage (cfg3.slots t w)) fullShare ((dat3 V c).before w t d)))
    ⊢ wp frame (wpE (defs₀ (F := F)) Variants.none c none) Set.univ (bodyAt3 t) (fun _ => iprop((dat3 V c).Φ t.succ ∗ (dat3 V c).owesAt () t.succ
      ∗ bigSep Finset.univ fun w : Fin cfg3.W => owns c.tc ((cfg3.win w).stage (cfg3.slots t w)) fullShare ((dat3 V c).after w t))) := by
  rw [bigSep_W3, bigSep_W3]
  simp only [before3 V c t]
  rw [show (dat3 V c).Φ t.succ = (dat3 V c).Φ t.castSucc from rfl, show (dat3 V c).owesAt () t.succ = (dat3 V c).owesAt () t.castSucc from rfl]
  dsimp only [dat3]
  generalize iblk3 V c 0 t = x0, iblk3 V c 1 t = x1, iblk3 V c 2 t = x2, iblk3 V c 3 t = x3, iblk3 V c 4 t = x4, iblk3 V c 5 t = x5, iblk3 V c 6 t = x6
  unfold bodyAt3
  simp only [cc3__final_kernel_eq_skeleton]; unfold cc3__final_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  subst hf0 hf1 hf2 hf3 hf4 hf5 hf6
  sl_exec
  sl_step
  iframe HΦ Ho
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  iexists _; iframe; ipureintro
  exact View.read_writes_eq_canon _ _ _ (View.cover_of_tiled _ S1024x64.size (by rfl))

theorem body_obligation3 (c : Dev nD) : BodyObligation (dat3 (F := F) V c) (defs₀ (F := F)) Variants.none () Set.univ :=
  sound_body3 V c

end Cert.Kernel.H
end
-- ==== Proof.K.Run.lean ====
import proofs.«115011_j33217277067916_1_alg».proof.Proof.K.Reg0
import proofs.«115011_j33217277067916_1_alg».proof.Proof.K.Reg1
import proofs.«115011_j33217277067916_1_alg».proof.Proof.K.Reg2
import proofs.«115011_j33217277067916_1_alg».proof.Proof.K.Reg3
import proofs.«115011_j33217277067916_1_alg».proof.Proof.Gen.Kernel.Regions

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

section
variable (c : Dev nD) (b : Ref sig .tc)

def W2 : Valuation τ sig (Elt F) :=
  Pipeline.withArrays spec0 c (W1 m ρ c) fun w => (dat0 (V1 m ρ) c).arrAt w cfg0.N
theorem W2_arr (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

def W3 : Valuation τ sig (Elt F) :=
  Pipeline.withArrays spec1 c (W2 m ρ c) fun w => (dat1 (V2 m ρ) c).arrAt w cfg1.N
theorem W3_arr (w : Fin cfg1.W) :
    W3 m ρ c (Proc.devRef .tc (Pipeline.arrRef spec1 w)) = (dat1 (V2 m ρ) c).arrAt w cfg1.N :=
  Pipeline.withArrays_arr spec1 launch1.win.arr_inj c _ _ w
theorem W3_of_ne (hb : ∀ w, Pipeline.arrRef spec1 w ≠ b) :
    W3 m ρ c (Proc.devRef .tc b) = W2 m ρ c (Proc.devRef .tc b) :=
  Pipeline.withArrays_of_ne spec1 c _ _ b hb

abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev V6 : (c : Dev nD) → (b : Ref sig .tc) → Buf (Elt F) ((c : Thread nD τ).loc b) := fun c b => W6 m ρ c b

def W7 : Valuation τ sig (Elt F) :=
  Pipeline.withArrays spec2 c (W6 m ρ c) fun w => (dat2 (V6 m ρ) c).arrAt w cfg2.N
theorem W7_arr (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (hb : ∀ w, Pipeline.arrRef spec2 w ≠ b) :
    W7 m ρ c (Proc.devRef .tc b) = W6 m ρ c (Proc.devRef .tc b) :=
  Pipeline.withArrays_of_ne spec2 c _ _ b hb

abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

def W9 : Valuation τ sig (Elt F) :=
  Pipeline.withArrays spec3 c (W8 m ρ c) fun w => (dat3 (V8 m ρ) c).arrAt w cfg3.N
theorem W9_arr (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_of_ne (hb : ∀ w, Pipeline.arrRef spec3 w ≠ b) :
    W9 m ρ c (Proc.devRef .tc b) = W8 m ρ c (Proc.devRef .tc b) :=
  Pipeline.withArrays_of_ne spec3 c _ _ b hb

end

def pdats : (p : Fin 4) → (c : Dev nD) → Dat τ (Elt F) Unit ℕ (UR sig nD τ) ℕ (Pipeline.pin (pcfgs (F := F)) adm p) c
  | ⟨0, _⟩ => dat0 (V1 m ρ)
  | ⟨1, _⟩ => dat1 (V2 m ρ)
  | ⟨2, _⟩ => dat2 (V6 m ρ)
  | ⟨3, _⟩ => dat3 (V8 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One record for all four regions: entry splits the region's arrays off the unscoped buffers, exit puts them back at their final contents. -/
def regAt (p : Fin 4) (lf : Pipeline.LaunchFacts (nD := nD) (τ := τ) cfgs p) (W W' : Dev nD → Valuation τ sig (Elt F))
    (hA : ∀ c w, (pdats m ρ p c).A w = W c (Proc.devRef .tc (Pipeline.arrRef (cfgs p).spec w)))
    (hq : ∀ c w, (pdats m ρ p c).q w = fullShare) (howed : ∀ c t, (pdats m ρ p c).owed t = 0)
    (hrec : ∀ c, (pdats m ρ p c).recorded 0 = Set.univ)
    (hb : ∀ c, BodyObligation (pdats m ρ p c) defs₀ 𝒱₀ () Set.univ)
    (hΦ₀ : ∀ c, (Pipeline.ΦA (cfgs p).spec c : sProp 𝕄) ⊢ (pdats m ρ p c).Φ 0)
    (hΦₙ : ∀ c, (pdats m ρ p c).Φ (Fin.last (cfgs p).N) ⊢ (Pipeline.ΦA (cfgs p).spec c : sProp 𝕄))
    (hF : ∀ c w, (pdats m ρ p c).arrAt w (cfgs p).N = W' c (Proc.devRef .tc (Pipeline.arrRef (cfgs p).spec w)))
    (hrest : ∀ c b, (∀ w, Pipeline.arrRef (cfgs p).spec w ≠ b) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c fun b => W c b
  hentry c := by
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    rw [Pipeline.ownSems0_none]
    unfold Pipeline.Dat.owesAt Pipeline.owesWithin Pipeline.Dat.bound
    rw [howed c 0, hrec c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%T, HO⟩; iexists T; isplitr; · ipureintro; exact fun _ _ => Or.inl trivial
      iexact HO
    isplitl [Hp]; · iexact Hp
    iexact Hrest
  hin c := by
    refine .trans ?_ (hΦ₀ c)
    unfold Pipeline.ΦA
    iintro ⟨Hp, -, Hr⟩
    isplitl [Hr]; · iexact Hr
    iexact Hp
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c (pdats m ρ) ((pdats m ρ p c).share_full (hq c))
      (fun b => W c b) (fun b => W' c b) ((pdats m ρ p c).arrAt · (cfgs p).N) (hF c)
      fun b h => hrest c b fun w e => h (Finset.mem_image.mpr ⟨w, Finset.mem_univ _, e⟩)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%T, -, HO⟩; iexists T; iexact HO

def reg0 := regAt m ρ 0 launch0 (W1 m ρ) (W2 m ρ) (fun _ _ => rfl) (fun _ _ => rfl) (fun _ _ => rfl) (fun _ => rfl)
  (body_obligation0 (V1 m ρ)) (fun _ => .rfl) (fun _ => .rfl) (fun c w => (W2_arr m ρ c w).symm) (W2_of_ne m ρ)
def reg1 := regAt m ρ 1 launch1 (W2 m ρ) (W3 m ρ) (fun _ _ => rfl) (fun _ _ => rfl) (fun _ _ => rfl) (fun _ => rfl)
  (body_obligation1 (V2 m ρ)) (hin1 (V2 m ρ)) (hout1 (V2 m ρ)) (fun c w => (W3_arr m ρ c w).symm) (W3_of_ne m ρ)
def reg2 := regAt m ρ 2 launch2 (W6 m ρ) (W7 m ρ) (fun _ _ => rfl) (fun _ _ => rfl) (fun _ _ => rfl) (fun _ => rfl)
  (body_obligation2 (V6 m ρ)) (hin2 (V6 m ρ)) (hout2 (V6 m ρ)) (fun c w => (W7_arr m ρ c w).symm) (W7_of_ne m ρ)
def reg3 := regAt m ρ 3 launch3 (W8 m ρ) (W9 m ρ) (fun _ _ => rfl) (fun _ _ => rfl) (fun _ _ => rfl) (fun _ => rfl)
  (body_obligation3 (V8 m ρ)) (fun _ => .rfl) (fun _ => .rfl) (fun c w => (W9_arr m ρ c w).symm) (W9_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .region (reg2 m ρ),
    .host (hseg hostOps3 hostOps3_sub hostOps3_fresh (W7 m ρ)),
    .region (reg3 m ρ) ]

/-- The nine items chained as segments; the frame and the result are read off the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W9 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.H

end
-- ==== Proof.K.Frame.lean ====
import proofs.«115011_j33217277067916_1_alg».proof.Proof.K.Run

noncomputable section

namespace Cert.Kernel.H

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A region changes only its output windows' arrays. -/
theorem withArrays_keep {cfg : Cfg sig Λ₀} {c : Dev nD} {b : Ref sig .tc} (D : Dat τ (Elt F) Unit ℕ (UR sig nD τ) ℕ cfg c)
    (hinj : Function.Injective (Pipeline.arrRef cfg.spec)) (W : Valuation τ sig (Elt F))
    (hA : ∀ w, D.A w = W (Proc.devRef .tc (Pipeline.arrRef cfg.spec w)))
    (h : ∀ w, Pipeline.arrRef cfg.spec w = b → (cfg.win w).isOut = false) :
    Pipeline.withArrays cfg.spec c W (fun w => D.arrAt w cfg.N) (Proc.devRef .tc b) = W (Proc.devRef .tc b) := by
  by_cases hb : ∃ w, Pipeline.arrRef cfg.spec w = b
  · obtain ⟨w, rfl⟩ := hb
    rw [Pipeline.withArrays_arr _ hinj, D.arrAt_in w (h w rfl), hA]
  · exact Pipeline.withArrays_of_ne _ c _ _ b fun w e => hb ⟨w, e⟩

variable (c : Dev nD) (b : Ref sig .tc)

theorem W1_keep (h : b ∉ hostOps0_W) : W1 m ρ c (Proc.devRef .tc b) = W0 m ρ c (Proc.devRef .tc b) :=
  StableHlo.after_of_writes_sub hostOps0 _ hostOps0_writes h
theorem W8_keep (h : b ∉ hostOps3_W) : W8 m ρ c (Proc.devRef .tc b) = W7 m ρ c (Proc.devRef .tc b) :=
  StableHlo.after_of_writes_sub hostOps3 _ hostOps3_writes h
theorem W6_keep3 (h2 : b ∉ hostOps2_2_W) (h1 : b ∉ hostOps2_1_W) (h0 : b ∉ hostOps2_W) :
    W6 m ρ c (Proc.devRef .tc b) = W3 m ρ c (Proc.devRef .tc b) :=
  (StableHlo.after_of_writes_sub hostOps2_2 _ hostOps2_2_writes h2).trans <|
  (StableHlo.after_of_writes_sub hostOps2_1 _ hostOps2_1_writes h1).trans (StableHlo.after_of_writes_sub hostOps2 _ hostOps2_writes h0)

theorem W3_in (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans ((dat1 (V2 m ρ) c).arrAt_in w hin _)
theorem W7_in (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans ((dat2 (V6 m ρ) c).arrAt_in w hin _)

theorem W3_other (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans ((W2_of_ne m ρ c b h0).trans ((W1_keep m ρ c b hh).trans rfl))
theorem W2_arg1 : W2 m ρ c (Proc.devRef .tc main_arg1) = m ((c : Thread nD τ).loc main_arg1) :=
  (W2_of_ne m ρ c main_arg1 (by decide)).trans ((W1_keep m ρ c main_arg1 (by decide)).trans rfl)
theorem W2_arg2 : W2 m ρ c (Proc.devRef .tc main_arg2) = m ((c : Thread nD τ).loc main_arg2) :=
  (W2_of_ne m ρ c main_arg2 (by decide)).trans ((W1_keep m ρ c main_arg2 (by decide)).trans rfl)
theorem W6_arg1 : W6 m ρ c (Proc.devRef .tc main_arg1) = m ((c : Thread nD τ).loc main_arg1) :=
  (W6_keep3 m ρ c main_arg1 (by decide) (by decide) (by decide)).trans ((W3_in m ρ c 0 rfl).trans (W2_arg1 m ρ c))
theorem W6_arg2 : W6 m ρ c (Proc.devRef .tc main_arg2) = m ((c : Thread nD τ).loc main_arg2) :=
  (W6_keep3 m ρ c main_arg2 (by decide) (by decide) (by decide)).trans ((W3_in m ρ c 1 rfl).trans (W2_arg2 m ρ c))

/-- No host stretch writes `b` and it is no region's output array. -/
abbrev Kept : Prop :=
  b ∉ hostOps0_W ∧ b ∉ hostOps2_W ∧ b ∉ hostOps2_1_W ∧ b ∉ hostOps2_2_W ∧ b ∉ hostOps3_W ∧
  (∀ w, Pipeline.arrRef spec0 w = b → (cfg0.win w).isOut = false) ∧ (∀ w, Pipeline.arrRef spec1 w = b → (cfg1.win w).isOut = false) ∧
  (∀ w, Pipeline.arrRef spec2 w = b → (cfg2.win w).isOut = false) ∧ ∀ w, Pipeline.arrRef spec3 w = b → (cfg3.win w).isOut = false

/-- Such a buffer ends as launched: each of the nine items leaves it as it found it. -/
theorem W9_kept (h : Kept b) : W9 m ρ c (Proc.devRef .tc b) = m ((c : Thread nD τ).loc b) := by
  obtain ⟨h0, h2, h21, h22, h3, r0, r1, r2, r3⟩ := h
  exact (withArrays_keep (dat3 (V8 m ρ) c) launch3.win.arr_inj (W8 m ρ c) (fun _ => rfl) r3).trans <| (W8_keep m ρ c b h3).trans <|
    (withArrays_keep (dat2 (V6 m ρ) c) launch2.win.arr_inj (W6 m ρ c) (fun _ => rfl) r2).trans <| (W6_keep3 m ρ c b h22 h21 h2).trans <|
    (withArrays_keep (dat1 (V2 m ρ) c) launch1.win.arr_inj (W2 m ρ c) (fun _ => rfl) r1).trans <|
    (withArrays_keep (dat0 (V1 m ρ) c) launch0.win.arr_inj (W1 m ρ c) (fun _ => rfl) r0).trans <| (W1_keep m ρ c b h0).trans rfl

theorem W9_arg0 : W9 m ρ c (Proc.devRef .tc main_arg0) = m ((c : Thread nD τ).loc main_arg0) := W9_kept m ρ c _ (by decide)
theorem W9_arg1 : W9 m ρ c (Proc.devRef .tc main_arg1) = m ((c : Thread nD τ).loc main_arg1) := W9_kept m ρ c _ (by decide)
theorem W9_arg2 : W9 m ρ c (Proc.devRef .tc main_arg2) = m ((c : Thread nD τ).loc main_arg2) := W9_kept m ρ c _ (by decide)
theorem W9_arg3 : W9 m ρ c (Proc.devRef .tc main_arg3) = m ((c : Thread nD τ).loc main_arg3) := W9_kept m ρ c _ (by decide)
theorem W9_arg4 : W9 m ρ c (Proc.devRef .tc main_arg4) = m ((c : Thread nD τ).loc main_arg4) := W9_kept m ρ c _ (by decide)
theorem W9_arg5 : W9 m ρ c (Proc.devRef .tc main_arg5) = m ((c : Thread nD τ).loc main_arg5) := W9_kept m ρ c _ (by decide)
theorem W9_arg6 : W9 m ρ c (Proc.devRef .tc main_arg6) = m ((c : Thread nD τ).loc main_arg6) := W9_kept m ρ c _ (by decide)
theorem W9_arg7 : W9 m ρ c (Proc.devRef .tc main_arg7) = m ((c : Thread nD τ).loc main_arg7) := W9_kept m ρ c _ (by decide)
theorem W9_arg8 : W9 m ρ c (Proc.devRef .tc main_arg8) = m ((c : Thread nD τ).loc main_arg8) := W9_kept m ρ c _ (by decide)

/-- Every argument is `Kept`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W9_arg0 m ρ c),
     (h c _ (mem_uc main_arg1 (by decide))).trans (W9_arg1 m ρ c),
     (h c _ (mem_uc main_arg2 (by decide))).trans (W9_arg2 m ρ c),
     (h c _ (mem_uc main_arg3 (by decide))).trans (W9_arg3 m ρ c),
     (h c _ (mem_uc main_arg4 (by decide))).trans (W9_arg4 m ρ c),
     (h c _ (mem_uc main_arg5 (by decide))).trans (W9_arg5 m ρ c),
     (h c _ (mem_uc main_arg6 (by decide))).trans (W9_arg6 m ρ c),
     (h c _ (mem_uc main_arg7 (by decide))).trans (W9_arg7 m ρ c),
     (h c _ (mem_uc main_arg8 (by decide))).trans (W9_arg8 m ρ c)⟩) (run_main m ρ)

end Cert.Kernel.H

end
-- ==== Proof.KI.Reg0.lean ====
import proofs.«115011_j33217277067916_1_alg».proof.Proof.Gen.KernelIdeal.Launch
import proofs.«115011_j33217277067916_1_alg».proof.Proof.Gen.KernelIdeal.Skeleton
import proofs.«115011_j33217277067916_1_alg».proof.Proof.Gen.KernelIdeal.Points
import Idealize.ShloMosaic.Lib.Pipeline.FrameBody
import Idealize.ShloMosaic.Lib.Tactic
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (x0 : Vec F S1024x512 .f32) (x1 : Vec F S512x256 .f32) (x2 : Vec F S1x256 .f32)

-- The body's one store, of the payload of the three whole-block loads, over the whole output block.
def out0_3 : Vec F S1024x256 .f32 :=
  View.canon [⟨Rect.unit ![0, 0] _ inb_S1024x256_S1024x256_0_0, k0_pay1 (View.ld x0 (Rect.unit ![0, 0] _ inb_S1024x512_S1024x512_0_0))
    (View.ld x1 (Rect.unit ![0, 0] _ inb_S512x256_S512x256_0_0)) (View.ld x2 (Rect.unit ![0, 0] _ inb_S1x256_S1x256_0_0))⟩]

end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

-- What the body finds of each input at point t is that input's block.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;>
    exact fun d => (Dat.before_in_eq_fetched _ _ rfl (fun _ => rfl) (fun _ _ _ => rfl) (fun _ => rfl) t d).trans rfl

-- At any point the body, handed the inputs' blocks, leaves them in place and stores out0_3 of them over the output block.
theorem sound_body0 (c : Dev nD) (t : Fin cfg0.N) :
    iprop((dat0 V c).Φ t.castSucc ∗ (dat0 V c).owesAt () t.castSucc
      ∗ bigSep Finset.univ fun w : Fin cfg0.W => iprop(∃ d, owns c.tc ((cfg0.win w).stage (cfg0.slots t w)) fullShare ((dat0 V c).before w t d)))
    ⊢ wp frame (wpE (defs₀ (F := F)) Variants.none c none) Set.univ (bodyAt0 t) (fun _ => iprop((dat0 V c).Φ t.succ ∗ (dat0 V c).owesAt () t.succ
      ∗ bigSep Finset.univ fun w : Fin cfg0.W => owns c.tc ((cfg0.win w).stage (cfg0.slots t w)) fullShare ((dat0 V c).after w t))) := by
  rw [bigSep_W0, bigSep_W0]
  simp only [before0 V c t]
  rw [show (dat0 V c).Φ t.succ = (dat0 V c).Φ t.castSucc from rfl, show (dat0 V c).owesAt () t.succ = (dat0 V c).owesAt () t.castSucc from rfl]
  dsimp only [dat0]
  generalize iblk0 V c 0 t = x0, iblk0 V c 1 t = x1, iblk0 V c 2 t = x2
  unfold bodyAt0
  simp only [cc0__embed_kernel_eq_skeleton]; unfold cc0__embed_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  subst hf0 hf1 hf2
  sl_exec
  sl_step
  iframe HΦ Ho
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S1024x256.size (by rfl))

theorem body_obligation0 (c : Dev nD) : BodyObligation (dat0 (F := F) V c) (defs₀ (F := F)) Variants.none () Set.univ :=
  sound_body0 V c

end Cert.KernelIdeal.H
end
-- ==== Proof.KI.Reg1.Runs.lean ====
import proofs.«115011_j33217277067916_1_alg».proof.Proof.Gen.KernelIdeal.Launch
import proofs.«115011_j33217277067916_1_alg».proof.Proof.Gen.KernelIdeal.Skeleton
import proofs.«115011_j33217277067916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at point `t` of the array `V` gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's two conditions (reduction coordinate 0; reduction coordinate 7), decided over the grid. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S1024x512 .f32 := (Memref.whole cc1_stg3_0 : Memref sig .tc .vmem S1024x512 .f32).view

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x256 .f32 := Memref.whole cc1_scratch0
abbrev scM1_1 : Memref sig .tc .vmem S1024x256 .f32 := Memref.whole cc1_scratch1

abbrev VS1_0 : View sig .tc .vmem S1024x256 .f32 := scM1_0.view
abbrev VS1_1 : View sig .tc .vmem S1024x256 .f32 := scM1_1.view

/-- The class invariant with the two accumulators split off the scoped rest. -/
theorem PhiA1_eq (c : Dev nD) :
    (Pipeline.ΦA spec1 c : sProp 𝕄)
      = iprop(iprop(iprop(iprop((∃ d, owns (c : Thread nD τ) scM1_0 fullShare d)) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.H

end
-- ==== Proof.KI.Reg1.RunA.lean ====
import proofs.«115011_j33217277067916_1_alg».proof.Proof.KI.Reg1.Runs
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate 0: the body's run on whole memrefs, the accumulators at anything; the pieces its stores leave are the witness. -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x1024 .f32) (x1 : Vec F S1024x1024 .f32) (x2 : Vec F S1024x256 .f32) :
    Σ' (L3 : List (View.Piece (Elt F) S1024x512 .f32)) (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.H

end
-- ==== Proof.KI.Reg1.RunB.lean ====
import proofs.«115011_j33217277067916_1_alg».proof.Proof.KI.Reg1.RunA
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate strictly inside the run of 8: the body's run over the accumulators as found, with the pieces its stores leave. -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x1024 .f32) (x1 : Vec F S1024x1024 .f32) (x2 : Vec F S1024x256 .f32) (xs0 : Vec F S1024x256 .f32) (xs1 : Vec F S1024x256 .f32) :
    Σ' (L3 : List (View.Piece (Elt F) S1024x512 .f32)) (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.H

end
-- ==== Proof.KI.Reg1.RunC.lean ====
import proofs.«115011_j33217277067916_1_alg».proof.Proof.KI.Reg1.RunB
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Last reduction coordinate: the body's run over the accumulators as found, which it then stores side by side into the output block. -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x1024 .f32) (x1 : Vec F S1024x1024 .f32) (x2 : Vec F S1024x256 .f32) (xs0 : Vec F S1024x256 .f32) (xs1 : Vec F S1024x256 .f32) :
    Σ' (L3 : List (View.Piece (Elt F) S1024x512 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.H

end
-- ==== Proof.KI.Reg1.lean ====
import proofs.«115011_j33217277067916_1_alg».proof.Proof.KI.Reg1.RunC
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The output block and the two accumulators that a case's stored pieces leave, read back. -/
def readBack1 (L3 : List (View.Piece (Elt F) S1024x512 .f32)) (LS0 LS1 : List (View.Piece (Elt F) S1024x256 .f32)) :
    Vec F S1024x512 .f32 × Vec F S1024x256 .f32 × Vec F S1024x256 .f32 :=
  (VO1_3.read (Elt F) (VO1_3.writes (Elt F) VO1_3.junk L3), VS1_0.read (Elt F) (VS1_0.writes (Elt F) VS1_0.junk LS0),
    VS1_1.read (Elt F) (VS1_1.writes (Elt F) VS1_1.junk LS1))

section
variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole)

section
variable (hc0 : cond1_0 i) (hc1 : ¬cond1_1 i) (x0 x1 : Vec F S1024x1024 .f32) (x2 : Vec F S1024x256 .f32)
theorem scover1_A_0 (y : S1024x256.Idx) : ∃ pc ∈ (kernelRun1_A c i arg2 harg2 arg3 harg3 arg4 harg4 arg5 harg5 arg6 harg6 arg7 harg7 hc0 hc1 x0 x1 x2).2.1, y ∈ pc.1.set :=
  View.cover_of_tiledL _ S1024x256.size (by sl_kernel_rfl) y
theorem scover1_A_1 (y : S1024x256.Idx) : ∃ pc ∈ (kernelRun1_A c i arg2 harg2 arg3 harg3 arg4 harg4 arg5 harg5 arg6 harg6 arg7 harg7 hc0 hc1 x0 x1 x2).2.2.1, y ∈ pc.1.set :=
  View.cover_of_tiledL _ S1024x256.size (by sl_kernel_rfl) y
def res1_A := readBack1 (F := F) (kernelRun1_A c i arg2 harg2 arg3 harg3 arg4 harg4 arg5 harg5 arg6 harg6 arg7 harg7 hc0 hc1 x0 x1 x2).1 (kernelRun1_A c i arg2 harg2 arg3 harg3 arg4 harg4 arg5 harg5 arg6 harg6 arg7 harg7 hc0 hc1 x0 x1 x2).2.1 (kernelRun1_A c i arg2 harg2 arg3 harg3 arg4 harg4 arg5 harg5 arg6 harg6 arg7 harg7 hc0 hc1 x0 x1 x2).2.2.1
end

section
variable (hc0 : ¬cond1_0 i) (hc1 : ¬cond1_1 i) (x0 x1 : Vec F S1024x1024 .f32) (x2 : Vec F S1024x256 .f32) (xs0 xs1 : Vec F S1024x256 .f32)
theorem scover1_B_0 (y : S1024x256.Idx) : ∃ pc ∈ (kernelRun1_B c i arg2 harg2 arg3 harg3 arg4 harg4 arg5 harg5 arg6 harg6 arg7 harg7 hc0 hc1 x0 x1 x2 xs0 xs1).2.1, y ∈ pc.1.set :=
  View.cover_of_tiledL _ S1024x256.size (by sl_kernel_rfl) y
theorem scover1_B_1 (y : S1024x256.Idx) : ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL _ S1024x256.size (by sl_kernel_rfl) y
def res1_B := readBack1 (F := F) (kernelRun1_B c i arg2 harg2 arg3 harg3 arg4 harg4 arg5 harg5 arg6 harg6 arg7 harg7 hc0 hc1 x0 x1 x2 xs0 xs1).1 (kernelRun1_B c i arg2 harg2 arg3 harg3 arg4 harg4 arg5 harg5 arg6 harg6 arg7 harg7 hc0 hc1 x0 x1 x2 xs0 xs1).2.1 (kernelRun1_B c i arg2 harg2 arg3 harg3 arg4 harg4 arg5 harg5 arg6 harg6 arg7 harg7 hc0 hc1 x0 x1 x2 xs0 xs1).2.2.1
end

section
variable (hc0 : ¬cond1_0 i) (hc1 : cond1_1 i) (x0 x1 : Vec F S1024x1024 .f32) (x2 : Vec F S1024x256 .f32) (xs0 xs1 : Vec F S1024x256 .f32)
theorem cover1_C_3 (y : S1024x512.Idx) : ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1024x256.size (by sl_kernel_rfl) y
theorem scover1_C_0 (y : S1024x256.Idx) : ∃ pc ∈ (kernelRun1_C c i arg2 harg2 arg3 harg3 arg4 harg4 arg5 harg5 arg6 harg6 arg7 harg7 hc0 hc1 x0 x1 x2 xs0 xs1).2.1, y ∈ pc.1.set :=
  View.cover_of_tiledL _ S1024x256.size (by sl_kernel_rfl) y
theorem scover1_C_1 (y : S1024x256.Idx) : ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL _ S1024x256.size (by sl_kernel_rfl) y
def res1_C := readBack1 (F := F) (kernelRun1_C c i arg2 harg2 arg3 harg3 arg4 harg4 arg5 harg5 arg6 harg6 arg7 harg7 hc0 hc1 x0 x1 x2 xs0 xs1).1 (kernelRun1_C c i arg2 harg2 arg3 harg3 arg4 harg4 arg5 harg5 arg6 harg6 arg7 harg7 hc0 hc1 x0 x1 x2 xs0 xs1).2.1 (kernelRun1_C c i arg2 harg2 arg3 harg3 arg4 harg4 arg5 harg5 arg6 harg6 arg7 harg7 hc0 hc1 x0 x1 x2 xs0 xs1).2.2.1
end

end

/-- A function of the body's six memrefs, at the ones the body is called with at point `t`. -/
abbrev at1 {α : Type} (t : Fin cfg1.N) (f : (a2 : Memref sig .tc .vmem S1024x1024 .f32) → a2.IsWhole → (a3 : Memref sig .tc .vmem S1024x1024 .f32) → a3.IsWhole → (a4 : Memref sig .tc .vmem S1024x256 .f32) → a4.IsWhole → (a5 : Memref sig .tc .vmem S1024x512 .f32) → a5.IsWhole → (a6 : Memref sig .tc .vmem S1024x256 .f32) → a6.IsWhole → (a7 : Memref sig .tc .vmem S1024x256 .f32) → a7.IsWhole → α) : α :=
  f (ms1_0 t) (hs1_0 t) (ms1_1 t) (hs1_1 t) (ms1_2 t) (hs1_2 t) (ms1_3 t) (hs1_3 t) scM1_0 (Memref.isWhole_whole _) scM1_1 (Memref.isWhole_whole _)

section
variable (c : Dev nD) (t : Fin cfg1.N)
/-- Each case's results at point `t`, over the accumulators `s` of the point before (cases B and C). -/
abbrev ptA1 (h0 : t.val % 8 = 0) (h1 : ¬t.val % 8 = 7) :=
  at1 t (res1_A (F := F) c (grid1.coords t)) ((hcond1_0 t).mpr h0) (fun h => h1 ((hcond1_1 t).mp h)) (iblk1 V c 0 t) (iblk1 V c 1 t) (iblk1 V c 2 t)
abbrev ptB1 (h0 : ¬t.val % 8 = 0) (h1 : ¬t.val % 8 = 7) (s : Vec F S1024x256 .f32 × Vec F S1024x256 .f32) :=
  at1 t (res1_B (F := F) c (grid1.coords t)) (fun h => h0 ((hcond1_0 t).mp h)) (fun h => h1 ((hcond1_1 t).mp h)) (iblk1 V c 0 t) (iblk1 V c 1 t) (iblk1 V c 2 t) s.1 s.2
abbrev ptC1 (h0 : ¬t.val % 8 = 0) (h1 : t.val % 8 = 7) (s : Vec F S1024x256 .f32 × Vec F S1024x256 .f32) :=
  at1 t (res1_C (F := F) c (grid1.coords t)) (fun h => h0 ((hcond1_0 t).mp h)) ((hcond1_1 t).mpr h1) (iblk1 V c 0 t) (iblk1 V c 1 t) (iblk1 V c 2 t) s.1 s.2
end

/-- The output block and the two accumulators after position `n`: the case its reduction coordinate selects, over position `n - 1`. -/
def outsAt1 (c : Dev nD) : (n : ℕ) → n < cfg1.N → Vec F S1024x512 .f32 × Vec F S1024x256 .f32 × Vec F S1024x256 .f32
  | 0, hn => ptA1 V c ⟨0, hn⟩ (Nat.zero_mod _) (fun h : 0 % 8 = 7 => by omega)
  | n + 1, hn =>
    if h0 : (n + 1) % 8 = 0 then ptA1 V c ⟨n + 1, hn⟩ h0 (fun h : (n + 1) % 8 = 7 => by omega)
    else if h1 : (n + 1) % 8 = 7 then ptC1 V c ⟨n + 1, hn⟩ h0 h1 (outsAt1 c n (Nat.lt_of_succ_lt hn)).2
    else ptB1 V c ⟨n + 1, hn⟩ h0 h1 (outsAt1 c n (Nat.lt_of_succ_lt hn)).2

/-- The accumulators as the point before `t` left them. -/
abbrev prev1 (c : Dev nD) (t : Fin cfg1.N) := (outsAt1 V c (t.val - 1) (Nat.lt_of_le_of_lt (Nat.sub_le _ _) t.isLt)).2

theorem outsAt1_A (c : Dev nD) (t : Fin cfg1.N) (h0 : t.val % 8 = 0) (h1 : ¬t.val % 8 = 7) :
    outsAt1 V c t.val t.isLt = ptA1 V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = ptB1 V c t h0 h1 (prev1 V c t) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC1 V c t h0 h1 (prev1 V c t) := by
  obtain ⟨n, hn⟩ := t
  cases n with
  | zero => exact absurd (Nat.zero_mod _) h0
  | succ n => exact (dif_neg h0).trans ((dif_pos h1).trans rfl)

/-- The region invariant with the two accumulators at `s`. -/
abbrev accs1 (c : Dev nD) (s : Vec F S1024x256 .f32 × Vec F S1024x256 .f32) : sProp 𝕄 :=
  iprop(iprop(iprop(owns (c : Thread nD τ) scM1_0 fullShare s.1 ∗ owns (c : Thread nD τ) scM1_1 fullShare s.2)
      ∗ Pipeline.scopedRestBut (Ix := Unit) (Name := ℕ) (U := UR sig nD τ) (Lvl := ℕ) (Val := Elt F) spec1 c [cc1_scratch0, cc1_scratch1]) ∗ (∃ r, prngReg c r))

/-- The region invariant before position `n`: the accumulators at what position `n - 1` left, at anything before the first. -/
def PhiS1 (c : Dev nD) : (n : ℕ) → n ≤ cfg1.N → sProp 𝕄
  | 0, _ => Pipeline.ΦA spec1 c
  | n + 1, hn => accs1 c (outsAt1 V c n hn).2

theorem PhiS1_succ (c : Dev nD) (n : ℕ) (hn : n < cfg1.N) : PhiS1 V c (n + 1) hn = accs1 c (outsAt1 V c n hn).2 := rfl

theorem PhiS1_pos (c : Dev nD) (n : ℕ) (h : n ≤ cfg1.N) (hz : n ≠ 0) :
    PhiS1 V c n h = accs1 c (outsAt1 V c (n - 1) (by omega)).2 := by
  cases n with
  | zero => exact absurd rfl hz
  | succ n => rfl

/-- At every position the invariant gives the class invariant back: the accumulators' named contents are forgotten. -/
theorem PhiS1_le (c : Dev nD) (n : ℕ) (h : n ≤ cfg1.N) : PhiS1 V c n h ⊢ Pipeline.ΦA spec1 c := by
  cases n with
  | zero => exact Entails.refl _
  | succ n =>
    rw [PhiS1_succ, PhiA1_eq]
    unfold accs1
    iintro ⟨⟨⟨HS0, HS1⟩, HR⟩, Hg⟩
    isplitl [HS0 HS1 HR]
    · isplitl [HS0 HS1]
      · isplitl [HS0]
        · iexists _; iexact HS0
        · iexists _; iexact HS1
      · iexact HR
    · iexact Hg

/-- The region's proof data: each input at its block, the output at `outsAt1`'s first component, the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- What the body finds of each input at point `t` is that input's block. -/
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) := by
  refine ⟨?_, ?_, ?_⟩ <;>
    exact fun d => (Dat.before_in_eq_fetched _ _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 600000 in
/-- The body at any point, by the case its reduction coordinate selects. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold ptA1 at1 res1_A readBack1 accs1; (try dsimp only)
    refine (BIClass.sep_mono (PhiS1_le V c _ _) (Entails.refl _)).trans ?_
    rw [PhiA1_eq]
    iintro ⟨⟨⟨⟨HS0, HS1⟩, HR⟩, Hg⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
    iframe H0 H1 H2 H3 HS0 HS1
    iintro ⟨H0, H1, H2, H3, ⟨%es0, HS0⟩, ⟨%es1, HS1⟩⟩
    iframe HR Hg Ho H0 H1 H2
    isplitr [H3]
    · isplitl [HS0]
      · unfold owns; iexists _; isplitr
        swap; · iexact HS0
        ipureintro; exact View.read_writes_of_cover _ _ _ _ _ (scover1_A_0 c _ _ _ _ _ _ _ _ _ _ _ _ _ _ _ _ _ _)
      · unfold owns; iexists _; isplitr
        swap; · iexact HS1
        ipureintro; exact View.read_writes_of_cover _ _ _ _ _ (scover1_A_1 c _ _ _ _ _ _ _ _ _ _ _ _ _ _ _ _ _ _)
    · iexists _; iexact H3
  · have hz : t.val ≠ 0 := fun e => h0 (by rw [e])
    rw [PhiS1_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold ptC1 at1 res1_C readBack1 accs1 prev1; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      iframe H0 H1 H2 HS0 HS1
      isplitl [H3]; · iexists _; iexact H3
      iintro ⟨H0, H1, H2, ⟨%e3, H3⟩, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover1_C_0 c _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _)
      · unfold owns; iexists _; isplitr
        swap; · iexact H3
        ipureintro; exact View.read_writes_of_cover _ _ _ _ _ (cover1_C_3 c _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold ptB1 at1 res1_B readBack1 accs1 prev1; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      iframe H0 H1 H2 H3 HS0 HS1
      iintro ⟨H0, H1, H2, H3, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _)
      · iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl]
  exact Entails.refl _

theorem hout1 (c : Dev nD) : (dat1 V c).Φ (Fin.last cfg1.N) ⊢ Pipeline.ΦA spec1 c :=
  show PhiS1 V c (Fin.last cfg1.N).val (Nat.le_of_lt_succ (Fin.last cfg1.N).isLt) ⊢ _ from PhiS1_le V c _ _

end Cert.KernelIdeal.H

end
-- ==== Proof.KI.Reg2.Runs.lean ====
import proofs.«115011_j33217277067916_1_alg».proof.Proof.Gen.KernelIdeal.Launch
import proofs.«115011_j33217277067916_1_alg».proof.Proof.Gen.KernelIdeal.Skeleton
import proofs.«115011_j33217277067916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at point `t` of the array `V` gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's two conditions (reduction coordinate 0; reduction coordinate 7), decided over the grid. -/
abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3_A : ∀ t : Fin cfg2.N, cond2_0 (grid2.coords t) → ¬cond2_1 (grid2.coords t) → cfg2.idle 3 (grid2.coords t) = true := by decide +kernel

theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel

theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

abbrev VO2_3 : View sig .tc .vmem S1024x1024 .f32 := (Memref.whole cc2_stg3_0 : Memref sig .tc .vmem S1024x1024 .f32).view

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

abbrev scM2_0 : Memref sig .tc .vmem S1024x512 .f32 := Memref.whole cc2_scratch0
abbrev scM2_1 : Memref sig .tc .vmem S1024x512 .f32 := Memref.whole cc2_scratch1

abbrev VS2_0 : View sig .tc .vmem S1024x512 .f32 := scM2_0.view
abbrev VS2_1 : View sig .tc .vmem S1024x512 .f32 := scM2_1.view

/-- The class invariant with the two accumulators split off the scoped rest. -/
theorem PhiA2_eq (c : Dev nD) :
    (Pipeline.ΦA spec2 c : sProp 𝕄)
      = iprop(iprop(iprop(iprop((∃ d, owns (c : Thread nD τ) scM2_0 fullShare d)) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.H

end
-- ==== Proof.KI.Reg2.RunA.lean ====
import proofs.«115011_j33217277067916_1_alg».proof.Proof.KI.Reg2.Runs
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate 0: the body's run on whole memrefs, the accumulators at anything; the pieces its stores leave are the witness. -/
noncomputable def kernelRun2_A (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole) (hc0 : cond2_0 i) (hc1 : ¬cond2_1 i)
    (x0 : Vec F S1024x1024 .f32) (x1 : Vec F S1024x1024 .f32) (x2 : Vec F S1024x512 .f32) :
    Σ' (L3 : List (View.Piece (Elt F) S1024x1024 .f32)) (LS0 : List (View.Piece (Elt F) S1024x512 .f32)), { LS1 : List (View.Piece (Elt F) S1024x512 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.H

end
-- ==== Proof.KI.Reg2.RunB.lean ====
import proofs.«115011_j33217277067916_1_alg».proof.Proof.KI.Reg2.RunA
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Reduction coordinate strictly inside the run of 8: the body's run over the accumulators as found, with the pieces its stores leave. -/
noncomputable def kernelRun2_B (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole) (hc0 : ¬cond2_0 i) (hc1 : ¬cond2_1 i)
    (x0 : Vec F S1024x1024 .f32) (x1 : Vec F S1024x1024 .f32) (x2 : Vec F S1024x512 .f32) (xs0 : Vec F S1024x512 .f32) (xs1 : Vec F S1024x512 .f32) :
    Σ' (L3 : List (View.Piece (Elt F) S1024x1024 .f32)) (LS0 : List (View.Piece (Elt F) S1024x512 .f32)), { LS1 : List (View.Piece (Elt F) S1024x512 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.H

end
-- ==== Proof.KI.Reg2.RunC.lean ====
import proofs.«115011_j33217277067916_1_alg».proof.Proof.KI.Reg2.RunB
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Last reduction coordinate: the body's run over the accumulators as found, which it then stores side by side into the output block. -/
noncomputable def kernelRun2_C (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole) (hc0 : ¬cond2_0 i) (hc1 : cond2_1 i)
    (x0 : Vec F S1024x1024 .f32) (x1 : Vec F S1024x1024 .f32) (x2 : Vec F S1024x512 .f32) (xs0 : Vec F S1024x512 .f32) (xs1 : Vec F S1024x512 .f32) :
    Σ' (L3 : List (View.Piece (Elt F) S1024x1024 .f32)) (LS0 : List (View.Piece (Elt F) S1024x512 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.H

end
-- ==== Proof.KI.Reg2.lean ====
import proofs.«115011_j33217277067916_1_alg».proof.Proof.KI.Reg2.RunC
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The output block and the two accumulators that a case's stored pieces leave, read back. -/
def readBack2 (L3 : List (View.Piece (Elt F) S1024x1024 .f32)) (LS0 LS1 : List (View.Piece (Elt F) S1024x512 .f32)) :
    Vec F S1024x1024 .f32 × Vec F S1024x512 .f32 × Vec F S1024x512 .f32 :=
  (VO2_3.read (Elt F) (VO2_3.writes (Elt F) VO2_3.junk L3), VS2_0.read (Elt F) (VS2_0.writes (Elt F) VS2_0.junk LS0),
    VS2_1.read (Elt F) (VS2_1.writes (Elt F) VS2_1.junk LS1))

section
variable (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole)

section
variable (hc0 : cond2_0 i) (hc1 : ¬cond2_1 i) (x0 x1 : Vec F S1024x1024 .f32) (x2 : Vec F S1024x512 .f32)
theorem scover2_A_0 (y : S1024x512.Idx) : ∃ pc ∈ (kernelRun2_A c i arg2 harg2 arg3 harg3 arg4 harg4 arg5 harg5 arg6 harg6 arg7 harg7 hc0 hc1 x0 x1 x2).2.1, y ∈ pc.1.set :=
  View.cover_of_tiledL _ S1024x512.size (by sl_kernel_rfl) y
theorem scover2_A_1 (y : S1024x512.Idx) : ∃ pc ∈ (kernelRun2_A c i arg2 harg2 arg3 harg3 arg4 harg4 arg5 harg5 arg6 harg6 arg7 harg7 hc0 hc1 x0 x1 x2).2.2.1, y ∈ pc.1.set :=
  View.cover_of_tiledL _ S1024x512.size (by sl_kernel_rfl) y
def res2_A := readBack2 (F := F) (kernelRun2_A c i arg2 harg2 arg3 harg3 arg4 harg4 arg5 harg5 arg6 harg6 arg7 harg7 hc0 hc1 x0 x1 x2).1 (kernelRun2_A c i arg2 harg2 arg3 harg3 arg4 harg4 arg5 harg5 arg6 harg6 arg7 harg7 hc0 hc1 x0 x1 x2).2.1 (kernelRun2_A c i arg2 harg2 arg3 harg3 arg4 harg4 arg5 harg5 arg6 harg6 arg7 harg7 hc0 hc1 x0 x1 x2).2.2.1
end

section
variable (hc0 : ¬cond2_0 i) (hc1 : ¬cond2_1 i) (x0 x1 : Vec F S1024x1024 .f32) (x2 : Vec F S1024x512 .f32) (xs0 xs1 : Vec F S1024x512 .f32)
theorem scover2_B_0 (y : S1024x512.Idx) : ∃ pc ∈ (kernelRun2_B c i arg2 harg2 arg3 harg3 arg4 harg4 arg5 harg5 arg6 harg6 arg7 harg7 hc0 hc1 x0 x1 x2 xs0 xs1).2.1, y ∈ pc.1.set :=
  View.cover_of_tiledL _ S1024x512.size (by sl_kernel_rfl) y
theorem scover2_B_1 (y : S1024x512.Idx) : ∃ pc ∈ (kernelRun2_B c i arg2 harg2 arg3 harg3 arg4 harg4 arg5 harg5 arg6 harg6 arg7 harg7 hc0 hc1 x0 x1 x2 xs0 xs1).2.2.1, y ∈ pc.1.set :=
  View.cover_of_tiledL _ S1024x512.size (by sl_kernel_rfl) y
def res2_B := readBack2 (F := F) (kernelRun2_B c i arg2 harg2 arg3 harg3 arg4 harg4 arg5 harg5 arg6 harg6 arg7 harg7 hc0 hc1 x0 x1 x2 xs0 xs1).1 (kernelRun2_B c i arg2 harg2 arg3 harg3 arg4 harg4 arg5 harg5 arg6 harg6 arg7 harg7 hc0 hc1 x0 x1 x2 xs0 xs1).2.1 (kernelRun2_B c i arg2 harg2 arg3 harg3 arg4 harg4 arg5 harg5 arg6 harg6 arg7 harg7 hc0 hc1 x0 x1 x2 xs0 xs1).2.2.1
end

section
variable (hc0 : ¬cond2_0 i) (hc1 : cond2_1 i) (x0 x1 : Vec F S1024x1024 .f32) (x2 : Vec F S1024x512 .f32) (xs0 xs1 : Vec F S1024x512 .f32)
theorem cover2_C_3 (y : S1024x1024.Idx) : ∃ pc ∈ (kernelRun2_C c i arg2 harg2 arg3 harg3 arg4 harg4 arg5 harg5 arg6 harg6 arg7 harg7 hc0 hc1 x0 x1 x2 xs0 xs1).1, y ∈ pc.1.set :=
  View.cover_of_tiledL (kernelRun2_C c i arg2 harg2 arg3 harg3 arg4 harg4 arg5 harg5 arg6 harg6 arg7 harg7 hc0 hc1 x0 x1 x2 xs0 xs1).1 S1024x512.size (by sl_kernel_rfl) y
theorem scover2_C_0 (y : S1024x512.Idx) : ∃ pc ∈ (kernelRun2_C c i arg2 harg2 arg3 harg3 arg4 harg4 arg5 harg5 arg6 harg6 arg7 harg7 hc0 hc1 x0 x1 x2 xs0 xs1).2.1, y ∈ pc.1.set :=
  View.cover_of_tiledL _ S1024x512.size (by sl_kernel_rfl) y
theorem scover2_C_1 (y : S1024x512.Idx) : ∃ pc ∈ (kernelRun2_C c i arg2 harg2 arg3 harg3 arg4 harg4 arg5 harg5 arg6 harg6 arg7 harg7 hc0 hc1 x0 x1 x2 xs0 xs1).2.2.1, y ∈ pc.1.set :=
  View.cover_of_tiledL _ S1024x512.size (by sl_kernel_rfl) y
def res2_C := readBack2 (F := F) (kernelRun2_C c i arg2 harg2 arg3 harg3 arg4 harg4 arg5 harg5 arg6 harg6 arg7 harg7 hc0 hc1 x0 x1 x2 xs0 xs1).1 (kernelRun2_C c i arg2 harg2 arg3 harg3 arg4 harg4 arg5 harg5 arg6 harg6 arg7 harg7 hc0 hc1 x0 x1 x2 xs0 xs1).2.1 (kernelRun2_C c i arg2 harg2 arg3 harg3 arg4 harg4 arg5 harg5 arg6 harg6 arg7 harg7 hc0 hc1 x0 x1 x2 xs0 xs1).2.2.1
end

end

/-- A function of the body's six memrefs, at the ones the body is called with at point `t`. -/
abbrev at2 {α : Type} (t : Fin cfg2.N) (f : (a2 : Memref sig .tc .vmem S1024x1024 .f32) → a2.IsWhole → (a3 : Memref sig .tc .vmem S1024x1024 .f32) → a3.IsWhole → (a4 : Memref sig .tc .vmem S1024x512 .f32) → a4.IsWhole → (a5 : Memref sig .tc .vmem S1024x1024 .f32) → a5.IsWhole → (a6 : Memref sig .tc .vmem S1024x512 .f32) → a6.IsWhole → (a7 : Memref sig .tc .vmem S1024x512 .f32) → a7.IsWhole → α) : α :=
  f (ms2_0 t) (hs2_0 t) (ms2_1 t) (hs2_1 t) (ms2_2 t) (hs2_2 t) (ms2_3 t) (hs2_3 t) scM2_0 (Memref.isWhole_whole _) scM2_1 (Memref.isWhole_whole _)

section
variable (c : Dev nD) (t : Fin cfg2.N)
/-- Each case's results at point `t`, over the accumulators `s` of the point before (cases B and C). -/
abbrev ptA2 (h0 : t.val % 8 = 0) (h1 : ¬t.val % 8 = 7) :=
  at2 t (res2_A (F := F) c (grid2.coords t)) ((hcond2_0 t).mpr h0) (fun h => h1 ((hcond2_1 t).mp h)) (iblk2 V c 0 t) (iblk2 V c 1 t) (iblk2 V c 2 t)
abbrev ptB2 (h0 : ¬t.val % 8 = 0) (h1 : ¬t.val % 8 = 7) (s : Vec F S1024x512 .f32 × Vec F S1024x512 .f32) :=
  at2 t (res2_B (F := F) c (grid2.coords t)) (fun h => h0 ((hcond2_0 t).mp h)) (fun h => h1 ((hcond2_1 t).mp h)) (iblk2 V c 0 t) (iblk2 V c 1 t) (iblk2 V c 2 t) s.1 s.2
abbrev ptC2 (h0 : ¬t.val % 8 = 0) (h1 : t.val % 8 = 7) (s : Vec F S1024x512 .f32 × Vec F S1024x512 .f32) :=
  at2 t (res2_C (F := F) c (grid2.coords t)) (fun h => h0 ((hcond2_0 t).mp h)) ((hcond2_1 t).mpr h1) (iblk2 V c 0 t) (iblk2 V c 1 t) (iblk2 V c 2 t) s.1 s.2
end

/-- The output block and the two accumulators after position `n`: the case its reduction coordinate selects, over position `n - 1`. -/
def outsAt2 (c : Dev nD) : (n : ℕ) → n < cfg2.N → Vec F S1024x1024 .f32 × Vec F S1024x512 .f32 × Vec F S1024x512 .f32
  | 0, hn => ptA2 V c ⟨0, hn⟩ (Nat.zero_mod _) (fun h : 0 % 8 = 7 => by omega)
  | n + 1, hn =>
    if h0 : (n + 1) % 8 = 0 then ptA2 V c ⟨n + 1, hn⟩ h0 (fun h : (n + 1) % 8 = 7 => by omega)
    else if h1 : (n + 1) % 8 = 7 then ptC2 V c ⟨n + 1, hn⟩ h0 h1 (outsAt2 c n (Nat.lt_of_succ_lt hn)).2
    else ptB2 V c ⟨n + 1, hn⟩ h0 h1 (outsAt2 c n (Nat.lt_of_succ_lt hn)).2

/-- The accumulators as the point before `t` left them. -/
abbrev prev2 (c : Dev nD) (t : Fin cfg2.N) := (outsAt2 V c (t.val - 1) (Nat.lt_of_le_of_lt (Nat.sub_le _ _) t.isLt)).2

theorem outsAt2_A (c : Dev nD) (t : Fin cfg2.N) (h0 : t.val % 8 = 0) (h1 : ¬t.val % 8 = 7) :
    outsAt2 V c t.val t.isLt = ptA2 V c t h0 h1 := by
  obtain ⟨n, hn⟩ := t
  cases n with
  | zero => rfl
  | succ n => exact (dif_pos h0).trans rfl

theorem outsAt2_B (c : Dev nD) (t : Fin cfg2.N) (h0 : ¬t.val % 8 = 0) (h1 : ¬t.val % 8 = 7) :
    outsAt2 V c t.val t.isLt = ptB2 V c t h0 h1 (prev2 V c t) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt = ptC2 V c t h0 h1 (prev2 V c t) := by
  obtain ⟨n, hn⟩ := t
  cases n with
  | zero => exact absurd (Nat.zero_mod _) h0
  | succ n => exact (dif_neg h0).trans ((dif_pos h1).trans rfl)

/-- The region invariant with the two accumulators at `s`. -/
abbrev accs2 (c : Dev nD) (s : Vec F S1024x512 .f32 × Vec F S1024x512 .f32) : sProp 𝕄 :=
  iprop(iprop(iprop(owns (c : Thread nD τ) scM2_0 fullShare s.1 ∗ owns (c : Thread nD τ) scM2_1 fullShare s.2)
      ∗ Pipeline.scopedRestBut (Ix := Unit) (Name := ℕ) (U := UR sig nD τ) (Lvl := ℕ) (Val := Elt F) spec2 c [cc2_scratch0, cc2_scratch1]) ∗ (∃ r, prngReg c r))

/-- The region invariant before position `n`: the accumulators at what position `n - 1` left, at anything before the first. -/
def PhiS2 (c : Dev nD) : (n : ℕ) → n ≤ cfg2.N → sProp 𝕄
  | 0, _ => Pipeline.ΦA spec2 c
  | n + 1, hn => accs2 c (outsAt2 V c n hn).2

theorem PhiS2_succ (c : Dev nD) (n : ℕ) (hn : n < cfg2.N) : PhiS2 V c (n + 1) hn = accs2 c (outsAt2 V c n hn).2 := rfl

theorem PhiS2_pos (c : Dev nD) (n : ℕ) (h : n ≤ cfg2.N) (hz : n ≠ 0) :
    PhiS2 V c n h = accs2 c (outsAt2 V c (n - 1) (by omega)).2 := by
  cases n with
  | zero => exact absurd rfl hz
  | succ n => rfl

/-- At every position the invariant gives the class invariant back: the accumulators' named contents are forgotten. -/
theorem PhiS2_le (c : Dev nD) (n : ℕ) (h : n ≤ cfg2.N) : PhiS2 V c n h ⊢ Pipeline.ΦA spec2 c := by
  cases n with
  | zero => exact Entails.refl _
  | succ n =>
    rw [PhiS2_succ, PhiA2_eq]
    unfold accs2
    iintro ⟨⟨⟨HS0, HS1⟩, HR⟩, Hg⟩
    isplitl [HS0 HS1 HR]
    · isplitl [HS0 HS1]
      · isplitl [HS0]
        · iexists _; iexact HS0
        · iexists _; iexact HS1
      · iexact HR
    · iexact Hg

/-- The region's proof data: each input at its block, the output at `outsAt2`'s first component, the invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- What the body finds of each input at point `t` is that input's block. -/
theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) := by
  refine ⟨?_, ?_, ?_⟩ <;>
    exact fun d => (Dat.before_in_eq_fetched _ _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 600000 in
/-- The body at any point, by the case its reduction coordinate selects. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2 V c t]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [PhiS2_castSucc V c t]
  by_cases h0 : t.val % 8 = 0
  · have h1 : ¬t.val % 8 = 7 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold ptA2 at2 res2_A readBack2 accs2; (try dsimp only)
    refine (BIClass.sep_mono (PhiS2_le V c _ _) (Entails.refl _)).trans ?_
    rw [PhiA2_eq]
    iintro ⟨⟨⟨⟨HS0, HS1⟩, HR⟩, Hg⟩, Ho, ⟨%d0, H0⟩, ⟨%d1, H1⟩, ⟨%d2, H2⟩, ⟨%d3, H3⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ Set.univ _)
    iframe H0 H1 H2 H3 HS0 HS1
    iintro ⟨H0, H1, H2, H3, ⟨%es0, HS0⟩, ⟨%es1, HS1⟩⟩
    iframe HR Hg Ho H0 H1 H2
    isplitr [H3]
    · isplitl [HS0]
      · unfold owns; iexists _; isplitr
        swap; · iexact HS0
        ipureintro; exact View.read_writes_of_cover _ _ _ _ _ (scover2_A_0 c _ _ _ _ _ _ _ _ _ _ _ _ _ _ _ _ _ _)
      · unfold owns; iexists _; isplitr
        swap; · iexact HS1
        ipureintro; exact View.read_writes_of_cover _ _ _ _ _ (scover2_A_1 c _ _ _ _ _ _ _ _ _ _ _ _ _ _ _ _ _ _)
    · iexists _; iexact H3
  · have hz : t.val ≠ 0 := fun e => h0 (by rw [e])
    rw [PhiS2_pos V c _ _ hz]
    by_cases h1 : t.val % 8 = 7
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold ptC2 at2 res2_C readBack2 accs2 prev2; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _ _).2.2.2 Set.univ _)
      iframe H0 H1 H2 HS0 HS1
      isplitl [H3]; · iexists _; iexact H3
      iintro ⟨H0, H1, H2, ⟨%e3, H3⟩, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover2_C_0 c _ _ _ _ _ _ _ _ _ _ _ _ _ _ _ _ _ _ _ _)
        · unfold owns; iexists _; isplitr
          swap; · iexact HS1
          ipureintro; exact View.read_writes_of_cover _ _ _ _ _ (scover2_C_1 c _ _ _ _ _ _ _ _ _ _ _ _ _ _ _ _ _ _ _ _)
      · unfold owns; iexists _; isplitr
        swap; · iexact H3
        ipureintro; exact View.read_writes_of_cover _ _ _ _ _ (cover2_C_3 c _ _ _ _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold ptB2 at2 res2_B readBack2 accs2 prev2; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _ _).2.2.2 _ Set.univ _)
      iframe H0 H1 H2 H3 HS0 HS1
      iintro ⟨H0, H1, H2, H3, ⟨%es0, HS0⟩, ⟨%es1, HS1⟩⟩
      iframe HR Hg Ho H0 H1 H2
      isplitr [H3]
      · isplitl [HS0]
        · unfold owns; iexists _; isplitr
          swap; · iexact HS0
          ipureintro; exact View.read_writes_of_cover _ _ _ _ _ (scover2_B_0 c _ _ _ _ _ _ _ _ _ _ _ _ _ _ _ _ _ _ _ _)
        · unfold owns; iexists _; isplitr
          swap; · iexact HS1
          ipureintro; exact View.read_writes_of_cover _ _ _ _ _ (scover2_B_1 c _ _ _ _ _ _ _ _ _ _ _ _ _ _ _ _ _ _ _ _)
      · iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl]
  exact Entails.refl _

theorem hout2 (c : Dev nD) : (dat2 V c).Φ (Fin.last cfg2.N) ⊢ Pipeline.ΦA spec2 c :=
  show PhiS2 V c (Fin.last cfg2.N).val (Nat.le_of_lt_succ (Fin.last cfg2.N).isLt) ⊢ _ from PhiS2_le V c _ _

end Cert.KernelIdeal.H

end
-- ==== Proof.KI.Reg3.lean ====
import proofs.«115011_j33217277067916_1_alg».proof.Proof.Gen.KernelIdeal.Launch
import proofs.«115011_j33217277067916_1_alg».proof.Proof.Gen.KernelIdeal.Skeleton
import proofs.«115011_j33217277067916_1_alg».proof.Proof.Gen.KernelIdeal.Points
import Idealize.ShloMosaic.Lib.Pipeline.FrameBody
import Idealize.ShloMosaic.Lib.Tactic
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable (x0 : Vec F S1024x256 .f32) (x1 : Vec F S1024x512 .f32) (x2 : Vec F S1024x1024 .f32) (x3 : Vec F S256x64 .f32)
  (x4 : Vec F S512x64 .f32) (x5 : Vec F S1024x64 .f32) (x6 : Vec F S1x64 .f32)

-- The body's one store, of the payload of the seven whole-block loads, over the whole output block.
def out3_7 : Vec F S1024x64 .f32 :=
  View.canon [⟨Rect.unit ![0, 0] _ inb_S1024x64_S1024x64_0_0, k3_pay1 (View.ld x0 (Rect.unit ![0, 0] _ inb_S1024x256_S1024x256_0_0))
    (View.ld x1 (Rect.unit ![0, 0] _ inb_S1024x512_S1024x512_0_0)) (View.ld x2 (Rect.unit ![0, 0] _ inb_S1024x1024_S1024x1024_0_0))
    (View.ld x3 (Rect.unit ![0, 0] _ inb_S256x64_S256x64_0_0)) (View.ld x4 (Rect.unit ![0, 0] _ inb_S512x64_S512x64_0_0))
    (View.ld x5 (Rect.unit ![0, 0] _ inb_S1024x64_S1024x64_0_0)) (View.ld x6 (Rect.unit ![0, 0] _ inb_S1x64_S1x64_0_0))⟩]

end

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

-- What the body finds of each input at point t is that input's block.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
    ∧ (∀ d, (dat3 V c).before 3 t d = iblk3 V c 3 t) ∧ (∀ d, (dat3 V c).before 4 t d = iblk3 V c 4 t) ∧ (∀ d, (dat3 V c).before 5 t d = iblk3 V c 5 t)
    ∧ (∀ d, (dat3 V c).before 6 t d = iblk3 V c 6 t) := by
  refine ⟨?_, ?_, ?_, ?_, ?_, ?_, ?_⟩ <;>
    exact fun d => (Dat.before_in_eq_fetched _ _ rfl (fun _ => rfl) (fun _ _ _ => rfl) (fun _ => rfl) t d).trans rfl

-- At any point the body, handed the inputs' blocks, leaves them in place and stores out3_7 of them over the output block.
theorem sound_body3 (c : Dev nD) (t : Fin cfg3.N) :
    iprop((dat3 V c).Φ t.castSucc ∗ (dat3 V c).owesAt () t.castSucc
      ∗ bigSep Finset.univ fun w : Fin cfg3.W => iprop(∃ d, owns c.tc ((cfg3.win w).stage (cfg3.slots t w)) fullShare ((dat3 V c).before w t d)))
    ⊢ wp frame (wpE (defs₀ (F := F)) Variants.none c none) Set.univ (bodyAt3 t) (fun _ => iprop((dat3 V c).Φ t.succ ∗ (dat3 V c).owesAt () t.succ
      ∗ bigSep Finset.univ fun w : Fin cfg3.W => owns c.tc ((cfg3.win w).stage (cfg3.slots t w)) fullShare ((dat3 V c).after w t))) := by
  rw [bigSep_W3, bigSep_W3]
  simp only [before3 V c t]
  rw [show (dat3 V c).Φ t.succ = (dat3 V c).Φ t.castSucc from rfl, show (dat3 V c).owesAt () t.succ = (dat3 V c).owesAt () t.castSucc from rfl]
  dsimp only [dat3]
  generalize iblk3 V c 0 t = x0, iblk3 V c 1 t = x1, iblk3 V c 2 t = x2, iblk3 V c 3 t = x3, iblk3 V c 4 t = x4, iblk3 V c 5 t = x5, iblk3 V c 6 t = x6
  unfold bodyAt3
  simp only [cc3__final_kernel_eq_skeleton]; unfold cc3__final_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  subst hf0 hf1 hf2 hf3 hf4 hf5 hf6
  sl_exec
  sl_step
  iframe HΦ Ho
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  iexists _; iframe; ipureintro
  exact View.read_writes_eq_canon _ _ _ (View.cover_of_tiled _ S1024x64.size (by rfl))

theorem body_obligation3 (c : Dev nD) : BodyObligation (dat3 (F := F) V c) (defs₀ (F := F)) Variants.none () Set.univ :=
  sound_body3 V c

end Cert.KernelIdeal.H
end
-- ==== Proof.KI.Run.lean ====
import proofs.«115011_j33217277067916_1_alg».proof.Proof.KI.Reg0
import proofs.«115011_j33217277067916_1_alg».proof.Proof.KI.Reg1
import proofs.«115011_j33217277067916_1_alg».proof.Proof.KI.Reg2
import proofs.«115011_j33217277067916_1_alg».proof.Proof.KI.Reg3
import proofs.«115011_j33217277067916_1_alg».proof.Proof.Gen.KernelIdeal.Regions

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

section
variable (c : Dev nD) (b : Ref sig .tc)

def W2 : Valuation τ sig (Elt F) :=
  Pipeline.withArrays spec0 c (W1 m ρ c) fun w => (dat0 (V1 m ρ) c).arrAt w cfg0.N
theorem W2_arr (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

def W3 : Valuation τ sig (Elt F) :=
  Pipeline.withArrays spec1 c (W2 m ρ c) fun w => (dat1 (V2 m ρ) c).arrAt w cfg1.N
theorem W3_arr (w : Fin cfg1.W) :
    W3 m ρ c (Proc.devRef .tc (Pipeline.arrRef spec1 w)) = (dat1 (V2 m ρ) c).arrAt w cfg1.N :=
  Pipeline.withArrays_arr spec1 launch1.win.arr_inj c _ _ w
theorem W3_of_ne (hb : ∀ w, Pipeline.arrRef spec1 w ≠ b) :
    W3 m ρ c (Proc.devRef .tc b) = W2 m ρ c (Proc.devRef .tc b) :=
  Pipeline.withArrays_of_ne spec1 c _ _ b hb

abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev V6 : (c : Dev nD) → (b : Ref sig .tc) → Buf (Elt F) ((c : Thread nD τ).loc b) := fun c b => W6 m ρ c b

def W7 : Valuation τ sig (Elt F) :=
  Pipeline.withArrays spec2 c (W6 m ρ c) fun w => (dat2 (V6 m ρ) c).arrAt w cfg2.N
theorem W7_arr (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (hb : ∀ w, Pipeline.arrRef spec2 w ≠ b) :
    W7 m ρ c (Proc.devRef .tc b) = W6 m ρ c (Proc.devRef .tc b) :=
  Pipeline.withArrays_of_ne spec2 c _ _ b hb

abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

def W9 : Valuation τ sig (Elt F) :=
  Pipeline.withArrays spec3 c (W8 m ρ c) fun w => (dat3 (V8 m ρ) c).arrAt w cfg3.N
theorem W9_arr (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_of_ne (hb : ∀ w, Pipeline.arrRef spec3 w ≠ b) :
    W9 m ρ c (Proc.devRef .tc b) = W8 m ρ c (Proc.devRef .tc b) :=
  Pipeline.withArrays_of_ne spec3 c _ _ b hb

end

def pdats : (p : Fin 4) → (c : Dev nD) → Dat τ (Elt F) Unit ℕ (UR sig nD τ) ℕ (Pipeline.pin (pcfgs (F := F)) adm p) c
  | ⟨0, _⟩ => dat0 (V1 m ρ)
  | ⟨1, _⟩ => dat1 (V2 m ρ)
  | ⟨2, _⟩ => dat2 (V6 m ρ)
  | ⟨3, _⟩ => dat3 (V8 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One record for all four regions: entry splits the region's arrays off the unscoped buffers, exit puts them back at their final contents. -/
def regAt (p : Fin 4) (lf : Pipeline.LaunchFacts (nD := nD) (τ := τ) cfgs p) (W W' : Dev nD → Valuation τ sig (Elt F))
    (hA : ∀ c w, (pdats m ρ p c).A w = W c (Proc.devRef .tc (Pipeline.arrRef (cfgs p).spec w)))
    (hq : ∀ c w, (pdats m ρ p c).q w = fullShare) (howed : ∀ c t, (pdats m ρ p c).owed t = 0)
    (hrec : ∀ c, (pdats m ρ p c).recorded 0 = Set.univ)
    (hb : ∀ c, BodyObligation (pdats m ρ p c) defs₀ 𝒱₀ () Set.univ)
    (hΦ₀ : ∀ c, (Pipeline.ΦA (cfgs p).spec c : sProp 𝕄) ⊢ (pdats m ρ p c).Φ 0)
    (hΦₙ : ∀ c, (pdats m ρ p c).Φ (Fin.last (cfgs p).N) ⊢ (Pipeline.ΦA (cfgs p).spec c : sProp 𝕄))
    (hF : ∀ c w, (pdats m ρ p c).arrAt w (cfgs p).N = W' c (Proc.devRef .tc (Pipeline.arrRef (cfgs p).spec w)))
    (hrest : ∀ c b, (∀ w, Pipeline.arrRef (cfgs p).spec w ≠ b) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c fun b => W c b
  hentry c := by
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    rw [Pipeline.ownSems0_none]
    unfold Pipeline.Dat.owesAt Pipeline.owesWithin Pipeline.Dat.bound
    rw [howed c 0, hrec c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%T, HO⟩; iexists T; isplitr; · ipureintro; exact fun _ _ => Or.inl trivial
      iexact HO
    isplitl [Hp]; · iexact Hp
    iexact Hrest
  hin c := by
    refine .trans ?_ (hΦ₀ c)
    unfold Pipeline.ΦA
    iintro ⟨Hp, -, Hr⟩
    isplitl [Hr]; · iexact Hr
    iexact Hp
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c (pdats m ρ) ((pdats m ρ p c).share_full (hq c))
      (fun b => W c b) (fun b => W' c b) ((pdats m ρ p c).arrAt · (cfgs p).N) (hF c)
      fun b h => hrest c b fun w e => h (Finset.mem_image.mpr ⟨w, Finset.mem_univ _, e⟩)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%T, -, HO⟩; iexists T; iexact HO

def reg0 := regAt m ρ 0 launch0 (W1 m ρ) (W2 m ρ) (fun _ _ => rfl) (fun _ _ => rfl) (fun _ _ => rfl) (fun _ => rfl)
  (body_obligation0 (V1 m ρ)) (fun _ => .rfl) (fun _ => .rfl) (fun c w => (W2_arr m ρ c w).symm) (W2_of_ne m ρ)
def reg1 := regAt m ρ 1 launch1 (W2 m ρ) (W3 m ρ) (fun _ _ => rfl) (fun _ _ => rfl) (fun _ _ => rfl) (fun _ => rfl)
  (body_obligation1 (V2 m ρ)) (hin1 (V2 m ρ)) (hout1 (V2 m ρ)) (fun c w => (W3_arr m ρ c w).symm) (W3_of_ne m ρ)
def reg2 := regAt m ρ 2 launch2 (W6 m ρ) (W7 m ρ) (fun _ _ => rfl) (fun _ _ => rfl) (fun _ _ => rfl) (fun _ => rfl)
  (body_obligation2 (V6 m ρ)) (hin2 (V6 m ρ)) (hout2 (V6 m ρ)) (fun c w => (W7_arr m ρ c w).symm) (W7_of_ne m ρ)
def reg3 := regAt m ρ 3 launch3 (W8 m ρ) (W9 m ρ) (fun _ _ => rfl) (fun _ _ => rfl) (fun _ _ => rfl) (fun _ => rfl)
  (body_obligation3 (V8 m ρ)) (fun _ => .rfl) (fun _ => .rfl) (fun c w => (W9_arr m ρ c w).symm) (W9_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .region (reg2 m ρ),
    .host (hseg hostOps3 hostOps3_sub hostOps3_fresh (W7 m ρ)),
    .region (reg3 m ρ) ]

/-- The nine items chained as segments; the frame and the result are read off the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W9 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.H

end
-- ==== Proof.KI.Frame.lean ====
import proofs.«115011_j33217277067916_1_alg».proof.Proof.KI.Run

noncomputable section

namespace Cert.KernelIdeal.H

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A region changes only its output windows' arrays. -/
theorem withArrays_keep {cfg : Cfg sig Λ₀} {c : Dev nD} {b : Ref sig .tc} (D : Dat τ (Elt F) Unit ℕ (UR sig nD τ) ℕ cfg c)
    (hinj : Function.Injective (Pipeline.arrRef cfg.spec)) (W : Valuation τ sig (Elt F))
    (hA : ∀ w, D.A w = W (Proc.devRef .tc (Pipeline.arrRef cfg.spec w)))
    (h : ∀ w, Pipeline.arrRef cfg.spec w = b → (cfg.win w).isOut = false) :
    Pipeline.withArrays cfg.spec c W (fun w => D.arrAt w cfg.N) (Proc.devRef .tc b) = W (Proc.devRef .tc b) := by
  by_cases hb : ∃ w, Pipeline.arrRef cfg.spec w = b
  · obtain ⟨w, rfl⟩ := hb
    rw [Pipeline.withArrays_arr _ hinj, D.arrAt_in w (h w rfl), hA]
  · exact Pipeline.withArrays_of_ne _ c _ _ b fun w e => hb ⟨w, e⟩

variable (c : Dev nD) (b : Ref sig .tc)

theorem W1_keep (h : b ∉ hostOps0_W) : W1 m ρ c (Proc.devRef .tc b) = W0 m ρ c (Proc.devRef .tc b) :=
  StableHlo.after_of_writes_sub hostOps0 _ hostOps0_writes h
theorem W8_keep (h : b ∉ hostOps3_W) : W8 m ρ c (Proc.devRef .tc b) = W7 m ρ c (Proc.devRef .tc b) :=
  StableHlo.after_of_writes_sub hostOps3 _ hostOps3_writes h
theorem W6_keep3 (h2 : b ∉ hostOps2_2_W) (h1 : b ∉ hostOps2_1_W) (h0 : b ∉ hostOps2_W) :
    W6 m ρ c (Proc.devRef .tc b) = W3 m ρ c (Proc.devRef .tc b) :=
  (StableHlo.after_of_writes_sub hostOps2_2 _ hostOps2_2_writes h2).trans <|
  (StableHlo.after_of_writes_sub hostOps2_1 _ hostOps2_1_writes h1).trans (StableHlo.after_of_writes_sub hostOps2 _ hostOps2_writes h0)

theorem W3_in (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans ((dat1 (V2 m ρ) c).arrAt_in w hin _)
theorem W7_in (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans ((dat2 (V6 m ρ) c).arrAt_in w hin _)

theorem W3_other (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans ((W2_of_ne m ρ c b h0).trans ((W1_keep m ρ c b hh).trans rfl))
theorem W2_arg1 : W2 m ρ c (Proc.devRef .tc main_arg1) = m ((c : Thread nD τ).loc main_arg1) :=
  (W2_of_ne m ρ c main_arg1 (by decide)).trans ((W1_keep m ρ c main_arg1 (by decide)).trans rfl)
theorem W2_arg2 : W2 m ρ c (Proc.devRef .tc main_arg2) = m ((c : Thread nD τ).loc main_arg2) :=
  (W2_of_ne m ρ c main_arg2 (by decide)).trans ((W1_keep m ρ c main_arg2 (by decide)).trans rfl)
theorem W6_arg1 : W6 m ρ c (Proc.devRef .tc main_arg1) = m ((c : Thread nD τ).loc main_arg1) :=
  (W6_keep3 m ρ c main_arg1 (by decide) (by decide) (by decide)).trans ((W3_in m ρ c 0 rfl).trans (W2_arg1 m ρ c))
theorem W6_arg2 : W6 m ρ c (Proc.devRef .tc main_arg2) = m ((c : Thread nD τ).loc main_arg2) :=
  (W6_keep3 m ρ c main_arg2 (by decide) (by decide) (by decide)).trans ((W3_in m ρ c 1 rfl).trans (W2_arg2 m ρ c))

/-- No host stretch writes `b` and it is no region's output array. -/
abbrev Kept : Prop :=
  b ∉ hostOps0_W ∧ b ∉ hostOps2_W ∧ b ∉ hostOps2_1_W ∧ b ∉ hostOps2_2_W ∧ b ∉ hostOps3_W ∧
  (∀ w, Pipeline.arrRef spec0 w = b → (cfg0.win w).isOut = false) ∧ (∀ w, Pipeline.arrRef spec1 w = b → (cfg1.win w).isOut = false) ∧
  (∀ w, Pipeline.arrRef spec2 w = b → (cfg2.win w).isOut = false) ∧ ∀ w, Pipeline.arrRef spec3 w = b → (cfg3.win w).isOut = false

/-- Such a buffer ends as launched: each of the nine items leaves it as it found it. -/
theorem W9_kept (h : Kept b) : W9 m ρ c (Proc.devRef .tc b) = m ((c : Thread nD τ).loc b) := by
  obtain ⟨h0, h2, h21, h22, h3, r0, r1, r2, r3⟩ := h
  exact (withArrays_keep (dat3 (V8 m ρ) c) launch3.win.arr_inj (W8 m ρ c) (fun _ => rfl) r3).trans <| (W8_keep m ρ c b h3).trans <|
    (withArrays_keep (dat2 (V6 m ρ) c) launch2.win.arr_inj (W6 m ρ c) (fun _ => rfl) r2).trans <| (W6_keep3 m ρ c b h22 h21 h2).trans <|
    (withArrays_keep (dat1 (V2 m ρ) c) launch1.win.arr_inj (W2 m ρ c) (fun _ => rfl) r1).trans <|
    (withArrays_keep (dat0 (V1 m ρ) c) launch0.win.arr_inj (W1 m ρ c) (fun _ => rfl) r0).trans <| (W1_keep m ρ c b h0).trans rfl

theorem W9_arg0 : W9 m ρ c (Proc.devRef .tc main_arg0) = m ((c : Thread nD τ).loc main_arg0) := W9_kept m ρ c _ (by decide)
theorem W9_arg1 : W9 m ρ c (Proc.devRef .tc main_arg1) = m ((c : Thread nD τ).loc main_arg1) := W9_kept m ρ c _ (by decide)
theorem W9_arg2 : W9 m ρ c (Proc.devRef .tc main_arg2) = m ((c : Thread nD τ).loc main_arg2) := W9_kept m ρ c _ (by decide)
theorem W9_arg3 : W9 m ρ c (Proc.devRef .tc main_arg3) = m ((c : Thread nD τ).loc main_arg3) := W9_kept m ρ c _ (by decide)
theorem W9_arg4 : W9 m ρ c (Proc.devRef .tc main_arg4) = m ((c : Thread nD τ).loc main_arg4) := W9_kept m ρ c _ (by decide)
theorem W9_arg5 : W9 m ρ c (Proc.devRef .tc main_arg5) = m ((c : Thread nD τ).loc main_arg5) := W9_kept m ρ c _ (by decide)
theorem W9_arg6 : W9 m ρ c (Proc.devRef .tc main_arg6) = m ((c : Thread nD τ).loc main_arg6) := W9_kept m ρ c _ (by decide)
theorem W9_arg7 : W9 m ρ c (Proc.devRef .tc main_arg7) = m ((c : Thread nD τ).loc main_arg7) := W9_kept m ρ c _ (by decide)
theorem W9_arg8 : W9 m ρ c (Proc.devRef .tc main_arg8) = m ((c : Thread nD τ).loc main_arg8) := W9_kept m ρ c _ (by decide)

/-- Every argument is `Kept`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W9_arg0 m ρ c),
     (h c _ (mem_uc main_arg1 (by decide))).trans (W9_arg1 m ρ c),
     (h c _ (mem_uc main_arg2 (by decide))).trans (W9_arg2 m ρ c),
     (h c _ (mem_uc main_arg3 (by decide))).trans (W9_arg3 m ρ c),
     (h c _ (mem_uc main_arg4 (by decide))).trans (W9_arg4 m ρ c),
     (h c _ (mem_uc main_arg5 (by decide))).trans (W9_arg5 m ρ c),
     (h c _ (mem_uc main_arg6 (by decide))).trans (W9_arg6 m ρ c),
     (h c _ (mem_uc main_arg7 (by decide))).trans (W9_arg7 m ρ c),
     (h c _ (mem_uc main_arg8 (by decide))).trans (W9_arg8 m ρ c)⟩) (run_main m ρ)

end Cert.KernelIdeal.H

end
-- ==== Proof.Ref.Stages.lean ====
import proofs.«115011_j33217277067916_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- max (x · wᵀ + b, 0). -/
def refH (x : FVec F S8192x512 .f32) (w : FVec F S256x512 .f32) (b : FVec F S256 .f32) : FVec F S8192x256 .f32 :=
  maximumf
    (addf
      (Host.dotGeneral dot_S8192x512_S512x256_S8192x256_1_0_0_1_n_n none x
        (transpose S512x256 [1, 0] w transposes_S256x512_S512x256_1_0))
      (broadcastInDim S8192x256 ![0, 1] bcast_S1x256_S8192x256_0_1 (broadcastInDim S1x256 ![1] bcast_S256_S1x256_1 b)))
    (broadcastInDim S8192x256 ![] bcast_S_S8192x256 (constant S_ .f32 0x00000000#32))

/-- A₁ · h beside A₂ · h. -/
def refConv1 (a1 a2 : FVec F S8192x8192 .f32) (h : FVec F S8192x256 .f32) : FVec F S8192x512 .f32 :=
  concatenate S8192x512 1
    [⟨S8192x256, Host.dotGeneral dot_S8192x8192_S8192x256_S8192x256_1_0_0_1_n_n none a1 h⟩,
     ⟨S8192x256, Host.dotGeneral dot_S8192x8192_S8192x256_S8192x256_1_0_0_1_n_n none a2 h⟩]
    concatenates_S8192x256_S8192x256_S8192x512_d1

/-- The column means: column sums over 8192. -/
def bnMean (z : FVec F S8192x512 .f32) : FVec F S512 .f32 :=
  Host.divf (Host.reduceAdd z (constant S_ .f32 0x00000000#32) reducesTo_S8192x512_S512_d0 h_S_)
    (broadcastInDim S512 ![] bcast_S_S512 (constant S_ .f32 0x46000000#32))

/-- The variance's divisor, 8192 − 0. -/
def bnDof : FVec F S_ .f32 :=
  subf (constant S_ .f32 0x46000000#32) (sitofp .f32 (constantI S_ 32 0#32))

/-- The deviations from the column means. -/
def bnDev (z : FVec F S8192x512 .f32) : FVec F S8192x512 .f32 :=
  subf z
    (broadcastInDim S8192x512 ![0, 1] bcast_S1x512_S8192x512_0_1
      (Host.divf
        (broadcastInDim S1x512 ![1] bcast_S512_S1x512_1
          (Host.reduceAdd z (constant S_ .f32 0x00000000#32) reducesTo_S8192x512_S512_d0 h_S_))
        (broadcastInDim S1x512 ![] bcast_S_S1x512 (constant S_ .f32 0x46000000#32))))

/-- The column variances; not-a-number where the divisor is not positive. -/
def bnVar (z : FVec F S8192x512 .f32) : FVec F S512 .f32 :=
  select (broadcastInDim S512 ![] bcast_S_S512 (cmpf .ogt (bnDof (F := F)) (constant S_ .f32 0x00000000#32)))
    (Host.divf
      (Host.reduceAdd (mulf (bnDev z) (bnDev z)) (constant S_ .f32 0x00000000#32) reducesTo_S8192x512_S512_d0 h_S_)
      (broadcastInDim S512 ![] bcast_S_S512 (bnDof (F := F))))
    (broadcastInDim S512 ![] bcast_S_S512 (id (constant S_ .f32 0x7FC00000#32)))

/-- (z − mean) · rsqrt (var + ε) · g + bt, each row vector copied down the rows. -/
def bn (z : FVec F S8192x512 .f32) (g bt : FVec F S512 .f32) : FVec F S8192x512 .f32 :=
  addf
    (mulf
      (mulf
        (subf z
          (broadcastInDim S8192x512 ![0, 1] bcast_S1x512_S8192x512_0_1
            (broadcastInDim S1x512 ![1] bcast_S512_S1x512_1 (bnMean z))))
        (broadcastInDim S8192x512 ![0, 1] bcast_S1x512_S8192x512_0_1
          (broadcastInDim S1x512 ![1] bcast_S512_S1x512_1
            (Host.rsqrt (addf (bnVar z) (broadcastInDim S512 ![] bcast_S_S512 (constant S_ .f32 0x3727C5AC#32)))))))
      (broadcastInDim S8192x512 ![0, 1] bcast_S1x512_S8192x512_0_1 (broadcastInDim S1x512 ![1] bcast_S512_S1x512_1 g)))
    (broadcastInDim S8192x512 ![0, 1] bcast_S1x512_S8192x512_0_1 (broadcastInDim S1x512 ![1] bcast_S512_S1x512_1 bt))

/-- A₁ · z beside A₂ · z. -/
def refConv2 (a1 a2 : FVec F S8192x8192 .f32) (z : FVec F S8192x512 .f32) : FVec F S8192x1024 .f32 :=
  concatenate S8192x1024 1
    [⟨S8192x512, Host.dotGeneral dot_S8192x8192_S8192x512_S8192x512_1_0_0_1_n_n none a1 z⟩,
     ⟨S8192x512, Host.dotGeneral dot_S8192x8192_S8192x512_S8192x512_1_0_0_1_n_n none a2 z⟩]
    concatenates_S8192x512_S8192x512_S8192x1024_d1

/-- [h | z | z₂] · wfinᵀ + bfin. -/
def refOut (h : FVec F S8192x256 .f32) (z : FVec F S8192x512 .f32) (z2 : FVec F S8192x1024 .f32)
    (wfin : FVec F S64x1792 .f32) (bfin : FVec F S64 .f32) : FVec F S8192x64 .f32 :=
  addf
    (Host.dotGeneral dot_S8192x1792_S1792x64_S8192x64_1_0_0_1_n_n none
      (concatenate S8192x1792 1 [⟨S8192x256, h⟩, ⟨S8192x512, z⟩, ⟨S8192x1024, z2⟩]
        concatenates_S8192x256_S8192x512_S8192x1024_S8192x1792_d1)
      (transpose S1792x64 [1, 0] wfin transposes_S64x1792_S1792x64_1_0))
    (broadcastInDim S8192x64 ![0, 1] bcast_S1x64_S8192x64_0_1 (broadcastInDim S1x64 ![1] bcast_S64_S1x64_1 bfin))

end Cert.ReferenceIdeal.RefRun

end
-- ==== Proof.KI.Host.lean ====
import proofs.«115011_j33217277067916_1_alg».proof.Proof.Gen.KernelIdeal.Launch
import proofs.«115011_j33217277067916_1_alg».proof.Proof.Ref.Stages
import Idealize.ShloMosaic.Lib.StableHlo.Run

noncomputable section

namespace Cert.KernelIdeal.H

open Cert.KernelIdeal Cert.KernelIdeal.Gen
open Idealize.ShloMosaic Idealize.ShloMosaic.TcCoe Idealize.SL.Sem Idealize.ShloMosaic.StableHlo

variable {F : FTy → Type} [FloatOps F]

/-- The three host stretches between the aggregations are the reference's batch normalisation, operation for operation. -/
theorem bn_chain (W : Valuation τ sig (Elt F)) :
    StableHlo.after hostOps2_2 (StableHlo.after hostOps2_1 (StableHlo.after hostOps2 W)) (Proc.devRef .tc main_v22)
      = Cert.ReferenceIdeal.RefRun.bn (W (Proc.devRef .tc main_v3)) (W (Proc.devRef .tc main_arg5)) (W (Proc.devRef .tc main_arg6)) := by
  simp only [hostOps2, hostOps2_1, hostOps2_2]
  after_results_simp
  simp only [TRef.ofBuf, TRef.toBuf, cast_eq]
  rfl

end Cert.KernelIdeal.H

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Sh (a b : ℕ) : Shape := ⟨2, ![a, b]⟩
abbrev Sh1 (a : ℕ) : Shape := ⟨1, ![a]⟩
abbrev Arr (s : Shape) : Type := FVec Ideal s .f32
abbrev z0 : EReal := Ideal.ofBits .f32 0x00000000#32

/-- The embedding at (i, j): the larger of zero and ∑ₖ x(i, k) · w(j, k) + b(j). -/
def embed (x : Arr (Sh 8192 512)) (w : Arr (Sh 256 512)) (b : Arr (Sh1 256)) : Arr (Sh 8192 256) :=
  fun ij => max ((∑ k : Fin 512, x (ix2 (ij 0) k) * w (ix2 (ij 1) k)) + b (ix1 (ij 1))) z0

/-- First aggregation: a column below 256 reads A₁ · f there, any other reads A₂ · f at the column less 256. -/
def agg1 (a1 a2 : Arr (Sh 8192 8192)) (f : Arr (Sh 8192 256)) : Arr (Sh 8192 512) :=
  fun ij =>
    if h : (ij 1).val < 256 then ∑ k : Fin 8192, a1 (ix2 (ij 0) k) * f (ix2 k (⟨(ij 1).val, h⟩ : Fin 256))
    else ∑ k : Fin 8192, a2 (ix2 (ij 0) k) * f (ix2 k (⟨(ij 1).val - 256, by have := idx2_lt1 ij; omega⟩ : Fin 256))

/-- Second aggregation: the same with 512 columns a block. -/
def agg2 (a1 a2 : Arr (Sh 8192 8192)) (f : Arr (Sh 8192 512)) : Arr (Sh 8192 1024) :=
  fun ij =>
    if h : (ij 1).val < 512 then ∑ k : Fin 8192, a1 (ix2 (ij 0) k) * f (ix2 k (⟨(ij 1).val, h⟩ : Fin 512))
    else ∑ k : Fin 8192, a2 (ix2 (ij 0) k) * f (ix2 k (⟨(ij 1).val - 512, by have := idx2_lt1 ij; omega⟩ : Fin 512))

/-- The projection: h, z and z₂ against columns k, 256 + k and 768 + k of the weight, summed, plus the bias. -/
def proj (h : Arr (Sh 8192 256)) (z : Arr (Sh 8192 512)) (z2 : Arr (Sh 8192 1024)) (wf : Arr (Sh 64 1792))
    (bf : Arr (Sh1 64)) : Arr (Sh 8192 64) :=
  fun ij =>
    (((∑ k : Fin 256, h (ix2 (ij 0) k) * wf (ix2 (ij 1) (⟨k.val, by have := k.isLt; omega⟩ : Fin 1792)))
        + (∑ k : Fin 512, z (ix2 (ij 0) k) * wf (ix2 (ij 1) (⟨256 + k.val, by have := k.isLt; omega⟩ : Fin 1792))))
      + (∑ k : Fin 1024, z2 (ix2 (ij 0) k) * wf (ix2 (ij 1) (⟨768 + k.val, by have := k.isLt; omega⟩ : Fin 1792))))
    + bf (ix1 (ij 1))

end Cert.Spec

end
-- ==== Proof.KI.Val0.lean ====
import proofs.«115011_j33217277067916_1_alg».proof.Proof.KI.Reg0
import proofs.«115011_j33217277067916_1_alg».proof.Proof.Spec
import Idealize.ShloMosaic.Lib.ValueLayout
import Idealize.ShloMosaic.PureOps.Ideal.Laws
import Idealize.ShloMosaic.Lib.StableHlo.Run
noncomputable section
namespace Cert.KernelIdeal.H
open Cert.KernelIdeal Cert.KernelIdeal.Gen
open Idealize.ShloMosaic Idealize.ShloMosaic.TcCoe Idealize.ShloMosaic.Tactic
open Idealize.SL Idealize.SL.Sem
open Cert.Spec (Sh Sh1 Arr)
open Idealize.ShloMosaic.ValueIdx
open scoped BigOperators

-- An m×K block times a K×n block into the zero block, at (a, b): the K-term sum of products along row a and column b.
theorem mm_apply {m K n : ℕ} {φ₁ φ₂ : FTy} (A : FVec Ideal ⟨2, ![m, K]⟩ φ₁) (B : FVec Ideal ⟨2, ![K, n]⟩ φ₂) (a : Fin m) (b : Fin n) :
    matmul (DotDims.plain m K n) none A B (constant ⟨2, ![m, n]⟩ .f32 0x00000000#32) (ix2 a b) = ∑ c : Fin K, A (ix2 a c) * B (ix2 c b) := by
  show FloatOps.matmul (DotDims.plain m K n) none A B _ (ix2 a b) = _
  rw [Ideal.matmul_constant_zero_apply, ← Equiv.sum_comp (contrEquiv1 (DotDims.plain m K n) K rfl rfl).symm]
  refine Finset.sum_congr rfl fun c _ => ?_
  have c2 := contrEquiv1_symm_val (DotDims.plain m K n) K rfl rfl c
  congr 2 <;> funext ax <;> apply Fin.ext <;> match ax with
    | ⟨0, _⟩ => first | rfl | exact c2
    | ⟨1, _⟩ => first | rfl | exact c2

-- The body's payload at (p, q): relu of the row-by-column sum plus the bias entry of column q.
theorem pay_embed_apply (x0 : Vec Ideal S1024x512 .f32) (x1 : Vec Ideal S512x256 .f32) (x2 : Vec Ideal S1x256 .f32)
    (p : Fin 1024) (q : Fin 256) :
    k0_pay1 x0 x1 x2 (ix2 p q) = max ((∑ k : Fin 512, x0 (ix2 p k) * x1 (ix2 k q)) + x2 (ix2 0 q)) Cert.Spec.z0 := by
  unfold k0_pay1
  rw [shapeCast_self, shapeCast_self]
  simp only [maximumf_apply, addf_apply, broadcast_apply]
  exact congrArg₂ max (congrArg₂ (· + ·) (mm_apply _ _ p q) (broadcastTo_1b_ab_apply _ _ p q)) rfl

variable (V : (c : Dev nD) → (b : Ref sig .tc) → Buf (Elt Ideal) ((c : Thread nD τ).loc b))

theorem hz_embed : (![0, 0] : Fin 2 → Nat) = fun _ => 0 := funext fun a => by fin_cases a <;> rfl

theorem idx_embed : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

def row0 (t : Fin cfg0.N) (p : Fin 1024) : Fin 8192 :=
  ⟨t.val * 1024 + p.val, by have := lt_of_lt_of_eq t.isLt N_0; have := p.isLt; omega⟩

-- A rank-2 index with the given two coordinates.
theorem ix2_of_val {m n : ℕ} {i : (⟨2, ![m, n]⟩ : Shape).Idx} {a : Fin m} {b : Fin n} (h0 : (i 0).val = a.val) (h1 : (i 1).val = b.val) :
    i = ix2 a b := (eq_ix2 i).trans (congrArg₂ ix2 (Fin.ext h0) (Fin.ext h1))

-- Row r of the output is in the block of point r / 1024.
theorem cover_embed (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ : ∃ t : Fin cfg0.N, t.val = (i 0).val / 1024 := ⟨⟨(i 0).val / 1024, by rw [show cfg0.N = 8 from N_0]; omega⟩, rfl⟩
  have e := idx_embed t
  refine ⟨t, flush0_3 t, ?_⟩
  show i ∈ ((View.whole main_v2).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

-- The output block of point t is rows 1024·t … of the embedding: each block entry is its array's entry where the block sits.
theorem final0 (c : Dev nD) (x : Arr (Sh 8192 512)) (w : Arr (Sh 256 512)) (b : Arr (Sh1 256))
    (hx : (V c main_arg0 : Arr (Sh 8192 512)) = x)
    (hwt : ∀ (k : Fin 512) (j : Fin 256), (V c main_v0 : Arr (Sh 512 256)) (ix2 k j) = w (ix2 j k))
    (hb : ∀ j : Fin 256, (V c main_v1 : Arr (Sh 1 256)) (ix2 0 j) = b (ix1 j)) :
    (dat0 (F := Ideal) V c).arrAt 3 cfg0.N = Cert.Spec.embed x w b := by
  refine (dat0 V c).arrAt_eq_of_cover 3 _ (fun t _ => ?_) cover_embed
  show (cfg0.win 3).cut (grid0.coords t) ((dat0 V c).after 3 t) = _
  rw [after0_3]
  unfold out0_3
  rw [View.canon_unit_zero hz_embed]
  simp only [View.ld_unit_zero (S := S1024x512) hz_embed, View.ld_unit_zero (S := S512x256) hz_embed,
    View.ld_unit_zero (S := S1x256) hz_embed]
  funext j
  obtain ⟨p, q, rfl⟩ : ∃ (p : Fin 1024) (q : Fin 256), j = ix2 p q := ⟨j 0, j 1, eq_ix2 j⟩
  refine (pay_embed_apply _ _ _ p q).trans ?_
  have e := idx_embed t
  have e3 : ((cfg0.win 3).blk t).view.emb (ix2 p q) = ix2 (row0 t p) q := ix2_of_val
    (by show win0_3.index t (0 : Fin 2) * 1024 + 1 * p.val = t.val * 1024 + p.val; omega)
    (by show win0_3.index t (1 : Fin 2) * 256 + 1 * q.val = q.val; omega)
  have h0 : ∀ k : Fin 512, iblk0 V c 0 t (ix2 p k) = x (ix2 (row0 t p) k) := fun k => hx ▸ congrArg (V c main_arg0) (ix2_of_val
    (by show win0_0.index t (0 : Fin 2) * 1024 + 1 * p.val = t.val * 1024 + p.val; omega)
    (by show win0_0.index t (1 : Fin 2) * 512 + 1 * k.val = k.val; omega))
  have h1 : ∀ k : Fin 512, iblk0 V c 1 t (ix2 k q) = w (ix2 q k) := fun k => (congrArg (V c main_v0) (ix2_of_val
    (by show win0_1.index t (0 : Fin 2) * 512 + 1 * k.val = k.val; omega)
    (by show win0_1.index t (1 : Fin 2) * 256 + 1 * q.val = q.val; omega))).trans (hwt k q)
  have h2 : iblk0 V c 2 t (ix2 0 q) = b (ix1 q) := (congrArg (V c main_v1) (ix2_of_val
    (by show win0_2.index t (0 : Fin 2) * 1 + 1 * (0 : Fin 1).val = (0 : Fin 1).val; omega)
    (by show win0_2.index t (1 : Fin 2) * 256 + 1 * q.val = q.val; omega))).trans (hb q)
  show _ = Cert.Spec.embed x w b (((cfg0.win 3).blk t).view.emb (ix2 p q))
  rw [e3]
  simp only [h0, h1, h2]
  rfl

-- After the host stretch the weight block is the weight transposed and the bias row the bias.
theorem host0_v0 (W : Valuation τ sig (Elt Ideal)) (k : Fin 512) (j : Fin 256) :
    (StableHlo.after hostOps0 W (Proc.devRef .tc main_v0) : Arr (Sh 512 256)) (ix2 k j)
      = (W (Proc.devRef .tc main_arg3) : Arr (Sh 256 512)) (ix2 j k) := by
  after_results
  exact transpose_ix2_apply _ _ k j

theorem host0_v1 (W : Valuation τ sig (Elt Ideal)) (j : Fin 256) :
    (StableHlo.after hostOps0 W (Proc.devRef .tc main_v1) : Arr (Sh 1 256)) (ix2 0 j)
      = (W (Proc.devRef .tc main_arg4) : Arr (Sh1 256)) (ix1 j) := by
  after_results
  exact shapeCast_a_1a_apply _ _ _ j

end Cert.KernelIdeal.H
end
-- ==== Proof.KI.Val1.Pieces.lean ====
import proofs.«115011_j33217277067916_1_alg».proof.Proof.KI.Reg1
import Idealize.ShloMosaic.Lib.Pipeline.Value
import Idealize.ShloMosaic.Lib.ValueIdx
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

theorem hz1 : (![0, 0] : Fin 2 → Nat) = fun _ => 0 := funext fun a => by fin_cases a <;> rfl

/-- Two 1024×256 blocks side by side as one 1024×512 block. -/
def halves1 (p q : Vec F S1024x256 .f32) : Vec F S1024x512 .f32 := fun y =>
  if h : (y 1).val < 256 then p (ix2 (y 0) ⟨(y 1).val, h⟩)
  else q (ix2 (y 0) ⟨(y 1).val - 256, by have := idx2_lt1 y; omega⟩)

section
variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole)

section
variable (hc0 : cond1_0 i) (hc1 : ¬cond1_1 i) (x0 x1 : Vec F S1024x1024 .f32) (x2 : Vec F S1024x256 .f32)
/-- Case A: each accumulator ends at one accumulate step over the reset's zeros. -/
theorem res1_A_acc : (res1_A (F := F) c i arg2 harg2 arg3 harg3 arg4 harg4 arg5 harg5 arg6 harg6 arg7 harg7 hc0 hc1 x0 x1 x2).2 = (k1_pay4 x0 x2 (k1_pay1 (F := F)), k1_pay5 x1 x2 (k1_pay2 (F := F))) := by
  unfold res1_A readBack1
  refine Prod.ext ?_ ?_ <;> dsimp only <;>
    first
    | rw [View.read_writes_eq_canon _ _ _ (scover1_A_0 c i arg2 harg2 arg3 harg3 arg4 harg4 arg5 harg5 arg6 harg6 arg7 harg7 hc0 hc1 x0 x1 x2)]
    | rw [View.read_writes_eq_canon _ _ _ (scover1_A_1 c i arg2 harg2 arg3 harg3 arg4 harg4 arg5 harg5 arg6 harg6 arg7 harg7 hc0 hc1 x0 x1 x2)]
  all_goals
    unfold kernelRun1_A
    dsimp only
    sl_unfold_words
    rw [View.canon_cons_unit_zero (S := S1024x256) hz1]
    simp only [View.readAt_eq_ld, harg2.read_unread, harg3.read_unread, harg4.read_unread, View.ld_unit_zero (S := S1024x1024) hz1,
      View.ld_unit_zero (S := S1024x256) hz1, View.readCov_unit_zero (S := S1024x256) _ hz1]
end

section
variable (hc0 : ¬cond1_0 i) (hc1 : ¬cond1_1 i) (x0 x1 : Vec F S1024x1024 .f32) (x2 : Vec F S1024x256 .f32) (xs0 xs1 : Vec F S1024x256 .f32)
/-- Case B: each accumulator ends at one accumulate step over what it held. -/
theorem res1_B_acc : (res1_B (F := F) c i arg2 harg2 arg3 harg3 arg4 harg4 arg5 harg5 arg6 harg6 arg7 harg7 hc0 hc1 x0 x1 x2 xs0 xs1).2 = (k1_pay4 x0 x2 xs0, k1_pay5 x1 x2 xs1) := by
  unfold res1_B readBack1
  refine Prod.ext ?_ ?_ <;> dsimp only <;>
    first
    | rw [View.read_writes_eq_canon _ _ _ (scover1_B_0 c i arg2 harg2 arg3 harg3 arg4 harg4 arg5 harg5 arg6 harg6 arg7 harg7 hc0 hc1 x0 x1 x2 xs0 xs1)]
    | rw [View.read_writes_eq_canon _ _ _ (scover1_B_1 c i arg2 harg2 arg3 harg3 arg4 harg4 arg5 harg5 arg6 harg6 arg7 harg7 hc0 hc1 x0 x1 x2 xs0 xs1)]
  all_goals
    unfold kernelRun1_B
    dsimp only
    sl_unfold_words
    rw [View.canon_unit_zero hz1]
    simp only [View.readAt_eq_ld, harg2.read_unread, harg3.read_unread, harg4.read_unread, harg6.read_unread, harg7.read_unread, View.ld_unit_zero (S := S1024x1024) hz1,
      View.ld_unit_zero (S := S1024x256) hz1, View.readCov_unit_zero (S := S1024x256) _ hz1]
end

section
variable (hc0 : ¬cond1_0 i) (hc1 : cond1_1 i) (x0 x1 : Vec F S1024x1024 .f32) (x2 : Vec F S1024x256 .f32) (xs0 xs1 : Vec F S1024x256 .f32)
/-- Case C: each accumulator ends at one accumulate step over what it held. -/
theorem res1_C_acc : (res1_C (F := F) c i arg2 harg2 arg3 harg3 arg4 harg4 arg5 harg5 arg6 harg6 arg7 harg7 hc0 hc1 x0 x1 x2 xs0 xs1).2 = (k1_pay4 x0 x2 xs0, k1_pay5 x1 x2 xs1) := by
  unfold res1_C readBack1
  refine Prod.ext ?_ ?_ <;> dsimp only <;>
    first
    | rw [View.read_writes_eq_canon _ _ _ (scover1_C_0 c i arg2 harg2 arg3 harg3 arg4 harg4 arg5 harg5 arg6 harg6 arg7 harg7 hc0 hc1 x0 x1 x2 xs0 xs1)]
    | rw [View.read_writes_eq_canon _ _ _ (scover1_C_1 c i arg2 harg2 arg3 harg3 arg4 harg4 arg5 harg5 arg6 harg6 arg7 harg7 hc0 hc1 x0 x1 x2 xs0 xs1)]
  all_goals
    unfold kernelRun1_C
    dsimp only
    sl_unfold_words
    rw [View.canon_unit_zero hz1]
    simp only [View.readAt_eq_ld, harg2.read_unread, harg3.read_unread, harg4.read_unread, harg6.read_unread, harg7.read_unread, View.ld_unit_zero (S := S1024x1024) hz1,
      View.ld_unit_zero (S := S1024x256) hz1, View.readCov_unit_zero (S := S1024x256) _ hz1]

/-- Case C's output block is the two stepped accumulators side by side: the two stores' rectangles tile it. -/
theorem res1_C_out : (res1_C (F := F) c i arg2 harg2 arg3 harg3 arg4 harg4 arg5 harg5 arg6 harg6 arg7 harg7 hc0 hc1 x0 x1 x2 xs0 xs1).1 = halves1 (k1_pay4 x0 x2 xs0) (k1_pay5 x1 x2 xs1) := by
  unfold res1_C readBack1
  dsimp only
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  sl_unfold_words
  simp only [View.readAt_eq_ld, harg2.read_unread, harg3.read_unread, harg4.read_unread, harg6.read_unread, harg7.read_unread, View.ld_unit_zero (S := S1024x1024) hz1,
    View.ld_unit_zero (S := S1024x256) hz1, View.readCov_unit_zero (S := S1024x256) _ hz1]
  funext y
  have hy0 : (y 0).val < 1024 := idx2_lt0 y
  have hy1 : (y 1).val < 512 := idx2_lt1 y
  refine View.canon_apply_of_pieces (halves1 (k1_pay4 x0 x2 xs0) (k1_pay5 x1 x2 xs1)) _ ?_ y ?_
  · intro p hp x
    simp only [List.mem_cons, List.mem_singleton, List.not_mem_nil, or_false] at hp
    rcases hp with rfl | rfl
    · show k1_pay5 x1 x2 xs1 x = halves1 _ _ _
      have hx1 : (x 1).val < 256 := idx2_lt1 x
      unfold halves1
      rw [dif_neg (by rw [Rect.emb_apply]; show ¬ 256 + 1 * (x 1).val < 256; omega)]
      refine congrArg (k1_pay5 x1 x2 xs1) (Shape.idx_ext₂ ?_ ?_)
      · show (x 0).val = 0 + 1 * (x 0).val; omega
      · show (x 1).val = 256 + 1 * (x 1).val - 256; omega
    · show k1_pay4 x0 x2 xs0 x = halves1 _ _ _
      have hx1 : (x 1).val < 256 := idx2_lt1 x
      unfold halves1
      rw [dif_pos (by rw [Rect.emb_apply]; show 0 + 1 * (x 1).val < 256; omega)]
      refine congrArg (k1_pay4 x0 x2 xs0) (Shape.idx_ext₂ ?_ ?_)
      · show (x 0).val = 0 + 1 * (x 0).val; omega
      · show (x 1).val = 0 + 1 * (x 1).val; omega
  · by_cases h : (y 1).val < 256
    · refine ⟨_, List.mem_cons_of_mem _ (List.mem_singleton_self _), ?_⟩
      rw [Rect.mem_set_unit]
      intro a
      match a with
      | ⟨0, _⟩ => show 0 ≤ (y 0).val ∧ (y 0).val < 0 + 1024; omega
      | ⟨1, _⟩ => show 0 ≤ (y 1).val ∧ (y 1).val < 0 + 256; omega
    · refine ⟨_, List.mem_cons_self, ?_⟩
      rw [Rect.mem_set_unit]
      intro a
      match a with
      | ⟨0, _⟩ => show 0 ≤ (y 0).val ∧ (y 0).val < 0 + 1024; omega
      | ⟨1, _⟩ => show 256 ≤ (y 1).val ∧ (y 1).val < 256 + 256; omega
end

end

end Cert.KernelIdeal.H

end
-- ==== Proof.KI.Val1.lean ====
import proofs.«115011_j33217277067916_1_alg».proof.Proof.Gen.KernelIdeal.Launch
import proofs.«115011_j33217277067916_1_alg».proof.Proof.Gen.KernelIdeal.Skeleton
import proofs.«115011_j33217277067916_1_alg».proof.Proof.Gen.KernelIdeal.Points
import proofs.«115011_j33217277067916_1_alg».proof.Proof.KI.Reg1
import proofs.«115011_j33217277067916_1_alg».proof.Proof.KI.Val1.Pieces
import proofs.«115011_j33217277067916_1_alg».proof.Proof.KI.Val0
import proofs.«115011_j33217277067916_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (Sh Sh1 Arr)
open Idealize.ShloMosaic.ValueIdx
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem k1_pay4_apply (x0 : Vec Ideal S1024x1024 .f32) (x2 : Vec Ideal S1024x256 .f32) (acc : Vec Ideal S1024x256 .f32)
    (r : Fin 1024) (j : Fin 256) :
    k1_pay4 (F := Ideal) x0 x2 acc (ix2 r j) = acc (ix2 r j) + ∑ s : Fin 1024, x0 (ix2 r s) * x2 (ix2 s j) := by
  unfold k1_pay4 k1_pay3
  simp only [shapeCast_self]
  refine (addf_apply _ _ _).trans ?_
  exact congrArg (acc (ix2 r j) + ·) (mm_apply _ _ r j)

theorem k1_pay1_apply (i : S1024x256.Idx) : k1_pay1 (F := Ideal) i = 0 := by
  unfold k1_pay1
  simp only [shapeCast_self]
  exact Ideal.ofBits_zero_f32

def term1 (a : Vec Ideal S8192x8192 .f32) (f : Vec Ideal S8192x256 .f32) (row : Fin 8192) (j : Fin 256) (k : ℕ) : EReal :=
  if h : k < 8192 then a (ix2 row ⟨k, h⟩) * f (ix2 ⟨k, h⟩ j) else 0

theorem sum_term1 (a : Vec Ideal S8192x8192 .f32) (f : Vec Ideal S8192x256 .f32) (row : Fin 8192) (j : Fin 256) :
    ∑ k ∈ Finset.range 8192, term1 a f row j k = ∑ k : Fin 8192, a (ix2 row k) * f (ix2 k j) := by
  rw [← Fin.sum_univ_eq_sum_range (fun k => term1 a f row j k) 8192]
  refine Finset.sum_congr rfl fun k _ => ?_
  unfold term1
  rw [dif_pos k.isLt]

theorem blockSum1 (a : Vec Ideal S8192x8192 .f32) (f : Vec Ideal S8192x256 .f32)
    (x0 : Vec Ideal S1024x1024 .f32) (x2 : Vec Ideal S1024x256 .f32) (i b : ℕ) (hi : i < 8) (hb : b < 8)
    (h0 : ∀ (r s : Fin 1024), x0 (ix2 r s) = a (ix2 ⟨1024 * i + r.val, by omega⟩ ⟨1024 * b + s.val, by omega⟩))
    (h2 : ∀ (s : Fin 1024) (j : Fin 256), x2 (ix2 s j) = f (ix2 ⟨1024 * b + s.val, by omega⟩ j))
    (r : Fin 1024) (j : Fin 256) :
    ∑ s : Fin 1024, x0 (ix2 r s) * x2 (ix2 s j)
      = ∑ x ∈ Finset.range 1024, term1 a f ⟨1024 * i + r.val, by omega⟩ j (1024 * b + x) := by
  rw [← Fin.sum_univ_eq_sum_range (fun x => term1 a f ⟨1024 * i + r.val, by omega⟩ j (1024 * b + x)) 1024]
  refine Finset.sum_congr rfl fun s _ => ?_
  unfold term1
  rw [dif_pos (by have := s.isLt; omega), h0 r s, h2 s j]

theorem sum_blocks1_zero (g : ℕ → EReal) : (0 : EReal) = ∑ k ∈ Finset.range (1024 * 0), g k := by
  rw [Nat.mul_zero, Finset.range_zero, Finset.sum_empty]

theorem sum_blocks1_succ (g : ℕ → EReal) (b : ℕ) :
    ∑ k ∈ Finset.range (1024 * b), g k + ∑ x ∈ Finset.range 1024, g (1024 * b + x)
      = ∑ k ∈ Finset.range (1024 * (b + 1)), g k := by
  rw [Nat.mul_succ, Finset.sum_range_add]

theorem acc1_step0 (a : Vec Ideal S8192x8192 .f32) (f : Vec Ideal S8192x256 .f32)
    (x0 : Vec Ideal S1024x1024 .f32) (x2 : Vec Ideal S1024x256 .f32) (acc : Vec Ideal S1024x256 .f32)
    (i b : ℕ) (hi : i < 8) (hb : b < 8)
    (h0 : ∀ (r s : Fin 1024), x0 (ix2 r s) = a (ix2 ⟨1024 * i + r.val, by omega⟩ ⟨1024 * b + s.val, by omega⟩))
    (h2 : ∀ (s : Fin 1024) (j : Fin 256), x2 (ix2 s j) = f (ix2 ⟨1024 * b + s.val, by omega⟩ j))
    (r : Fin 1024) (j : Fin 256)
    (hacc : acc (ix2 r j) = ∑ k ∈ Finset.range (1024 * b), term1 a f ⟨1024 * i + r.val, by omega⟩ j k) :
    k1_pay4 (F := Ideal) x0 x2 acc (ix2 r j)
      = ∑ k ∈ Finset.range (1024 * (b + 1)), term1 a f ⟨1024 * i + r.val, by omega⟩ j k :=
  (k1_pay4_apply x0 x2 acc r j).trans
    ((congrArg₂ (· + ·) hacc (blockSum1 a f x0 x2 i b hi hb h0 h2 r j)).trans (sum_blocks1_succ _ b))

abbrev blkA1 (c : Dev nD) (t : Fin cfg1.N) : Vec F S1024x1024 .f32 := iblk1 V c 0 t
abbrev blkB1 (c : Dev nD) (t : Fin cfg1.N) : Vec F S1024x1024 .f32 := iblk1 V c 1 t
abbrev blkF1 (c : Dev nD) (t : Fin cfg1.N) : Vec F S1024x256 .f32 := iblk1 V c 2 t
abbrev arrA1 (c : Dev nD) : Vec F S8192x8192 .f32 := V c main_arg1
abbrev arrB1 (c : Dev nD) : Vec F S8192x8192 .f32 := V c main_arg2
abbrev arrF1 (c : Dev nD) : Vec F S8192x256 .f32 := V c main_v2

theorem idx_facts1 : ∀ t : Fin cfg1.N, win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

theorem blkA1_apply (c : Dev nD) (t : Fin cfg1.N) (i b : ℕ) (hi : i < 8) (hb : b < 8) (e : t.val = 8 * i + b)
    (r s : Fin 1024) :
    blkA1 V c t (ix2 r s) = arrA1 V c (ix2 ⟨1024 * i + r.val, by omega⟩ ⟨1024 * b + s.val, by omega⟩) := by
  obtain ⟨e0, e1, -⟩ := idx_facts1 t
  show iblk1 V c 0 t (ix2 r s) = V c main_arg1 _
  unfold iblk1
  rw [View.read_apply]
  show V c main_arg1 _ = V c main_arg1 _
  congr 1
  funext a
  apply Fin.ext
  match a with
  | ⟨0, _⟩ => show win1_0.index t 0 * 1024 + 1 * r.val = 1024 * i + r.val; rw [e0]; omega
  | ⟨1, _⟩ => show win1_0.index t 1 * 1024 + 1 * s.val = 1024 * b + s.val; rw [e1]; omega

theorem blkB1_apply (c : Dev nD) (t : Fin cfg1.N) (i b : ℕ) (hi : i < 8) (hb : b < 8) (e : t.val = 8 * i + b)
    (r s : Fin 1024) :
    blkB1 V c t (ix2 r s) = arrB1 V c (ix2 ⟨1024 * i + r.val, by omega⟩ ⟨1024 * b + s.val, by omega⟩) := by
  obtain ⟨-, -, e0, e1, -⟩ := idx_facts1 t
  show iblk1 V c 1 t (ix2 r s) = V c main_arg2 _
  unfold iblk1
  rw [View.read_apply]
  show V c main_arg2 _ = V c main_arg2 _
  congr 1
  funext a
  apply Fin.ext
  match a with
  | ⟨0, _⟩ => show win1_1.index t 0 * 1024 + 1 * r.val = 1024 * i + r.val; rw [e0]; omega
  | ⟨1, _⟩ => show win1_1.index t 1 * 1024 + 1 * s.val = 1024 * b + s.val; rw [e1]; omega

theorem blkF1_apply (c : Dev nD) (t : Fin cfg1.N) (i b : ℕ) (hi : i < 8) (hb : b < 8) (e : t.val = 8 * i + b)
    (s : Fin 1024) (j : Fin 256) :
    blkF1 V c t (ix2 s j) = arrF1 V c (ix2 ⟨1024 * b + s.val, by omega⟩ j) := by
  obtain ⟨-, -, -, -, e0, e1, -⟩ := idx_facts1 t
  show iblk1 V c 2 t (ix2 s j) = V c main_v2 _
  unfold iblk1
  rw [View.read_apply]
  show V c main_v2 _ = V c main_v2 _
  congr 1
  funext a
  apply Fin.ext
  match a with
  | ⟨0, _⟩ => show win1_2.index t 0 * 1024 + 1 * s.val = 1024 * b + s.val; rw [e0]; omega
  | ⟨1, _⟩ => show win1_2.index t 1 * 256 + 1 * j.val = j.val; rw [e1]; omega

theorem halves1_apply_lt (P Q : Vec F S1024x256 .f32) (p : Fin 1024) (q : Fin 512) (h : q.val < 256) :
    halves1 P Q (ix2 p q) = P (ix2 p ⟨q.val, h⟩) := dif_pos h
theorem halves1_apply_ge (P Q : Vec F S1024x256 .f32) (p : Fin 1024) (q : Fin 512) (h : ¬q.val < 256) :
    halves1 P Q (ix2 p q) = Q (ix2 p ⟨q.val - 256, by have := q.isLt; omega⟩) := dif_neg h

theorem agg1_apply_lt (a1 a2 : Arr (Sh 8192 8192)) (f : Arr (Sh 8192 256)) (row : Fin 8192) (col : Fin 512) (h : col.val < 256) :
    Cert.Spec.agg1 a1 a2 f (ix2 row col) = ∑ k : Fin 8192, a1 (ix2 row k) * f (ix2 k ⟨col.val, h⟩) := dif_pos h

theorem agg1_apply_ge (a1 a2 : Arr (Sh 8192 8192)) (f : Arr (Sh 8192 256)) (row : Fin 8192) (col : Fin 512) (h : ¬col.val < 256) :
    Cert.Spec.agg1 a1 a2 f (ix2 row col)
      = ∑ k : Fin 8192, a2 (ix2 row k) * f (ix2 k ⟨col.val - 256, by have := col.isLt; omega⟩) := dif_neg h

/-- The accumulators after point `t`: one accumulate step over what they held, zeros at the first point of each run of 8. -/
theorem acc1_at (c : Dev nD) (t : Fin cfg1.N) :
    (outsAt1 V c t.val t.isLt).2
      = (k1_pay4 (blkA1 V c t) (blkF1 V c t) (if t.val % 8 = 0 then k1_pay1 else (prev1 V c t).1),
        k1_pay4 (blkB1 V c t) (blkF1 V c t) (if t.val % 8 = 0 then k1_pay1 else (prev1 V c t).2)) := by
  by_cases h0 : t.val % 8 = 0
  · have h1 : ¬t.val % 8 = 7 := by omega
    rw [if_pos h0, if_pos h0, outsAt1_A V c t h0 h1]
    exact res1_A_acc c (grid1.coords t) _ _ _ _ _ _ _ _ _ _ _ _ ((hcond1_0 t).mpr h0) (fun h => h1 ((hcond1_1 t).mp h)) (blkA1 V c t) (blkB1 V c t) (blkF1 V c t)
  · rw [if_neg h0, if_neg h0]
    by_cases h1 : t.val % 8 = 7
    · rw [outsAt1_C V c t h0 h1]
      exact res1_C_acc c (grid1.coords t) _ _ _ _ _ _ _ _ _ _ _ _ (fun h => h0 ((hcond1_0 t).mp h)) ((hcond1_1 t).mpr h1) (blkA1 V c t) (blkB1 V c t) (blkF1 V c t) _ _
    · rw [outsAt1_B V c t h0 h1]
      exact res1_B_acc c (grid1.coords t) _ _ _ _ _ _ _ _ _ _ _ _ (fun h => h0 ((hcond1_0 t).mp h)) (fun h => h1 ((hcond1_1 t).mp h)) (blkA1 V c t) (blkB1 V c t) (blkF1 V c t) _ _

/-- The output block a last point of a run stores: the two stepped accumulators side by side. -/
theorem out1_at (c : Dev nD) (t : Fin cfg1.N) (h0 : ¬t.val % 8 = 0) (h1 : t.val % 8 = 7) :
    (outsAt1 V c t.val t.isLt).1
      = halves1 (k1_pay4 (blkA1 V c t) (blkF1 V c t) (prev1 V c t).1) (k1_pay4 (blkB1 V c t) (blkF1 V c t) (prev1 V c t).2) := by
  rw [outsAt1_C V c t h0 h1]
  exact res1_C_out c (grid1.coords t) _ _ _ _ _ _ _ _ _ _ _ _ (fun h => h0 ((hcond1_0 t).mp h)) ((hcond1_1 t).mpr h1) (blkA1 V c t) (blkB1 V c t) (blkF1 V c t) _ _

section AtIdeal1
variable (V : (c : Dev nD) → (b : Ref sig .tc) → Buf (Elt Ideal) ((c : Thread nD τ).loc b))

/-- After point 8·i + kk each accumulator holds the sum over the first 1024·(kk + 1) depths of its adjacency's row against the features' column. -/
theorem outsAt1_inv (c : Dev nD) (n : ℕ) : ∀ (hn : n < cfg1.N) (i kk : ℕ) (hi : i < 8) (hkk : kk < 8) (e : n = 8 * i + kk)
    (r : Fin 1024) (j : Fin 256),
    (outsAt1 V c n hn).2.1 (ix2 r j)
        = ∑ k ∈ Finset.range (1024 * (kk + 1)), term1 (arrA1 V c) (arrF1 V c) ⟨1024 * i + r.val, by omega⟩ j k
    ∧ (outsAt1 V c n hn).2.2 (ix2 r j)
        = ∑ k ∈ Finset.range (1024 * (kk + 1)), term1 (arrB1 V c) (arrF1 V c) ⟨1024 * i + r.val, by omega⟩ j k := by
  induction n using Nat.strong_induction_on with
  | _ n ih =>
    intro hn i kk hi hkk e r j
    have hN : cfg1.N = 64 := N_1
    rw [acc1_at V c ⟨n, hn⟩]
    dsimp only
    have hA := fun b hb (e : n = 8 * i + b) r s => blkA1_apply V c ⟨n, hn⟩ i b hi hb e r s
    have hB := fun b hb (e : n = 8 * i + b) r s => blkB1_apply V c ⟨n, hn⟩ i b hi hb e r s
    have hF := fun b hb (e : n = 8 * i + b) s j => blkF1_apply V c ⟨n, hn⟩ i b hi hb e s j
    rcases kk with _ | kk
    · have h0 : n % 8 = 0 := by omega
      rw [if_pos h0, if_pos h0]
      exact ⟨acc1_step0 _ _ _ _ _ i 0 hi hkk (hA 0 hkk e) (hF 0 hkk e) r j ((k1_pay1_apply _).trans (sum_blocks1_zero _)),
        acc1_step0 _ _ _ _ _ i 0 hi hkk (hB 0 hkk e) (hF 0 hkk e) r j ((k1_pay1_apply _).trans (sum_blocks1_zero _))⟩
    · have h0 : ¬n % 8 = 0 := by omega
      rw [if_neg h0, if_neg h0]
      have hp := ih (n - 1) (by omega) (Nat.lt_of_le_of_lt (Nat.sub_le _ _) hn) i kk hi (by omega) (by omega) r j
      exact ⟨acc1_step0 _ _ _ _ _ i (kk + 1) hi hkk (hA _ hkk e) (hF _ hkk e) r j hp.1,
        acc1_step0 _ _ _ _ _ i (kk + 1) hi hkk (hB _ hkk e) (hF _ hkk e) r j hp.2⟩

theorem flushed1_eq (c : Dev nD) (t : Fin cfg1.N) (hfl : (cfg1.win 3).flush t = true) :
    (dat1 V c).flushed 3 t
      = ((cfg1.win 3).blk t).view.read (Elt Ideal) (Cert.Spec.agg1 (arrA1 V c) (arrB1 V c) (arrF1 V c)) := by
  have hN : cfg1.N = 64 := N_1
  have ht := t.isLt
  have h7 : t.val % 8 = 7 := (flush1_3 t).mp hfl
  have h0 : ¬t.val % 8 = 0 := by omega
  have hi : t.val / 8 < 8 := by omega
  have e : t.val = 8 * (t.val / 8) + (6 + 1) := by omega
  have e' : t.val - 1 = 8 * (t.val / 8) + 6 := by omega
  obtain ⟨-, -, -, -, -, -, e30, e31⟩ := idx_facts1 t
  show (cfg1.win 3).cut (grid1.coords t) ((dat1 V c).after 3 t) = _
  rw [after1_3, out1_at V c t h0 h7]
  funext y
  obtain ⟨p, q, rfl⟩ : ∃ (p : Fin 1024) (q : Fin 512), y = ix2 p q := ⟨y 0, y 1, eq_ix2 y⟩
  rw [View.read_apply]
  have hemb : ((cfg1.win 3).blk t).view.emb (ix2 p q) = ix2 (⟨1024 * (t.val / 8) + p.val, by omega⟩ : Fin 8192) q := by
    funext a
    apply Fin.ext
    match a with
    | ⟨0, _⟩ => show win1_3.index t 0 * 1024 + 1 * p.val = 1024 * (t.val / 8) + p.val; rw [e30]; omega
    | ⟨1, _⟩ => show win1_3.index t 1 * 512 + 1 * q.val = q.val; rw [e31]; omega
  have hp := outsAt1_inv V c (t.val - 1) (Nat.lt_of_le_of_lt (Nat.sub_le _ _) t.isLt) (t.val / 8) 6 hi (by omega) e' p
  show halves1 (F := Ideal) _ _ (ix2 p q) = Cert.Spec.agg1 (arrA1 V c) (arrB1 V c) (arrF1 V c) (((cfg1.win 3).blk t).view.emb (ix2 p q))
  rw [hemb]
  by_cases hq : q.val < 256
  · rw [halves1_apply_lt _ _ p q hq, agg1_apply_lt _ _ _ _ q hq, ← sum_term1]
    exact acc1_step0 (arrA1 V c) (arrF1 V c) (blkA1 V c t) (blkF1 V c t) (prev1 V c t).1 (t.val / 8) (6 + 1) hi (by omega)
      (fun r s => blkA1_apply V c t (t.val / 8) (6 + 1) hi (by omega) e r s)
      (fun s j => blkF1_apply V c t (t.val / 8) (6 + 1) hi (by omega) e s j) p ⟨q.val, hq⟩ (hp ⟨q.val, hq⟩).1
  · rw [halves1_apply_ge _ _ p q hq, agg1_apply_ge _ _ _ _ q hq, ← sum_term1]
    exact acc1_step0 (arrB1 V c) (arrF1 V c) (blkB1 V c t) (blkF1 V c t) (prev1 V c t).2 (t.val / 8) (6 + 1) hi (by omega)
      (fun r s => blkB1_apply V c t (t.val / 8) (6 + 1) hi (by omega) e r s)
      (fun s j => blkF1_apply V c t (t.val / 8) (6 + 1) hi (by omega) e s j) p ⟨q.val - 256, by have := q.isLt; omega⟩
      (hp ⟨q.val - 256, by have := q.isLt; omega⟩).2

theorem cover1 (i : S8192x512.Idx) :
    ∃ t : Fin cfg1.N, (cfg1.win 3).flush t = true ∧ i ∈ ((cfg1.win 3).blk t).view.set := by
  have hN : cfg1.N = 64 := N_1
  have hi0 : (i 0).val < 8192 := idx2_lt0 i
  have hi1 : (i 1).val < 512 := idx2_lt1 i
  have htN : 8 * ((i 0).val / 1024) + 7 < cfg1.N := by omega
  obtain ⟨-, -, -, -, -, -, e30, e31⟩ := idx_facts1 ⟨8 * ((i 0).val / 1024) + 7, htN⟩
  have e30' : win1_3.index ⟨8 * ((i 0).val / 1024) + 7, htN⟩ (0 : Fin 2) = (i 0).val / 1024 := by
    rw [e30]; show (8 * ((i 0).val / 1024) + 7) / 8 = _; omega
  refine ⟨⟨8 * ((i 0).val / 1024) + 7, htN⟩, (flush1_3 _).mpr (by show (8 * ((i 0).val / 1024) + 7) % 8 = 7; omega), ?_⟩
  show i ∈ ((View.whole main_v3).slice (win1_3.rect ⟨8 * ((i 0).val / 1024) + 7, htN⟩)).set
  rw [View.set_slice_whole, Rect.mem_set_unit]
  intro a
  match a with
  | ⟨0, _⟩ =>
    show win1_3.index ⟨8 * ((i 0).val / 1024) + 7, htN⟩ 0 * 1024 ≤ (i 0).val
      ∧ (i 0).val < win1_3.index ⟨8 * ((i 0).val / 1024) + 7, htN⟩ 0 * 1024 + 1024
    rw [e30']; omega
  | ⟨1, _⟩ =>
    show win1_3.index ⟨8 * ((i 0).val / 1024) + 7, htN⟩ 1 * 512 ≤ (i 1).val
      ∧ (i 1).val < win1_3.index ⟨8 * ((i 0).val / 1024) + 7, htN⟩ 1 * 512 + 512
    rw [e31]; omega

theorem final1 (c : Dev nD) (a1 a2 : Arr (Sh 8192 8192)) (f : Arr (Sh 8192 256))
    (h1 : (V c main_arg1 : Arr (Sh 8192 8192)) = a1) (h2 : (V c main_arg2 : Arr (Sh 8192 8192)) = a2)
    (hf : (V c main_v2 : Arr (Sh 8192 256)) = f) :
    (dat1 (F := Ideal) V c).arrAt 3 cfg1.N = Cert.Spec.agg1 a1 a2 f := by
  subst h1 h2 hf
  exact (dat1 V c).arrAt_eq_of_cover 3 (Cert.Spec.agg1 (arrA1 V c) (arrB1 V c) (arrF1 V c)) (flushed1_eq V c) cover1

end AtIdeal1

end Cert.KernelIdeal.H

end
-- ==== Proof.KI.Val2.Pieces.lean ====
import proofs.«115011_j33217277067916_1_alg».proof.Proof.KI.Reg2
import Idealize.ShloMosaic.Lib.Pipeline.Value
import Idealize.ShloMosaic.Lib.ValueIdx
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

theorem hz2 : (![0, 0] : Fin 2 → Nat) = fun _ => 0 := funext fun a => by fin_cases a <;> rfl

/-- Two 1024×512 blocks side by side as one 1024×1024 block. -/
def halves2 (p q : Vec F S1024x512 .f32) : Vec F S1024x1024 .f32 := fun y =>
  if h : (y 1).val < 512 then p (ix2 (y 0) ⟨(y 1).val, h⟩)
  else q (ix2 (y 0) ⟨(y 1).val - 512, by have := idx2_lt1 y; omega⟩)

section
variable (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x512 .f32) (harg7 : arg7.IsWhole)

section
variable (hc0 : cond2_0 i) (hc1 : ¬cond2_1 i) (x0 x1 : Vec F S1024x1024 .f32) (x2 : Vec F S1024x512 .f32)
/-- Case A: each accumulator ends at one accumulate step over the reset's zeros. -/
theorem res2_A_acc : (res2_A (F := F) c i arg2 harg2 arg3 harg3 arg4 harg4 arg5 harg5 arg6 harg6 arg7 harg7 hc0 hc1 x0 x1 x2).2 = (k2_pay4 x0 x2 (k2_pay1 (F := F)), k2_pay5 x1 x2 (k2_pay2 (F := F))) := by
  unfold res2_A readBack2
  refine Prod.ext ?_ ?_ <;> dsimp only <;>
    first
    | rw [View.read_writes_eq_canon _ _ _ (scover2_A_0 c i arg2 harg2 arg3 harg3 arg4 harg4 arg5 harg5 arg6 harg6 arg7 harg7 hc0 hc1 x0 x1 x2)]
    | rw [View.read_writes_eq_canon _ _ _ (scover2_A_1 c i arg2 harg2 arg3 harg3 arg4 harg4 arg5 harg5 arg6 harg6 arg7 harg7 hc0 hc1 x0 x1 x2)]
  all_goals
    unfold kernelRun2_A
    dsimp only
    sl_unfold_words
    rw [View.canon_cons_unit_zero (S := S1024x512) hz2]
    simp only [View.readAt_eq_ld, harg2.read_unread, harg3.read_unread, harg4.read_unread, View.ld_unit_zero (S := S1024x1024) hz2,
      View.ld_unit_zero (S := S1024x512) hz2, View.readCov_unit_zero (S := S1024x512) _ hz2]
end

section
variable (hc0 : ¬cond2_0 i) (hc1 : ¬cond2_1 i) (x0 x1 : Vec F S1024x1024 .f32) (x2 : Vec F S1024x512 .f32) (xs0 xs1 : Vec F S1024x512 .f32)
/-- Case B: each accumulator ends at one accumulate step over what it held. -/
theorem res2_B_acc : (res2_B (F := F) c i arg2 harg2 arg3 harg3 arg4 harg4 arg5 harg5 arg6 harg6 arg7 harg7 hc0 hc1 x0 x1 x2 xs0 xs1).2 = (k2_pay4 x0 x2 xs0, k2_pay5 x1 x2 xs1) := by
  unfold res2_B readBack2
  refine Prod.ext ?_ ?_ <;> dsimp only <;>
    first
    | rw [View.read_writes_eq_canon _ _ _ (scover2_B_0 c i arg2 harg2 arg3 harg3 arg4 harg4 arg5 harg5 arg6 harg6 arg7 harg7 hc0 hc1 x0 x1 x2 xs0 xs1)]
    | rw [View.read_writes_eq_canon _ _ _ (scover2_B_1 c i arg2 harg2 arg3 harg3 arg4 harg4 arg5 harg5 arg6 harg6 arg7 harg7 hc0 hc1 x0 x1 x2 xs0 xs1)]
  all_goals
    unfold kernelRun2_B
    dsimp only
    sl_unfold_words
    rw [View.canon_unit_zero hz2]
    simp only [View.readAt_eq_ld, harg2.read_unread, harg3.read_unread, harg4.read_unread, harg6.read_unread, harg7.read_unread, View.ld_unit_zero (S := S1024x1024) hz2,
      View.ld_unit_zero (S := S1024x512) hz2, View.readCov_unit_zero (S := S1024x512) _ hz2]
end

section
variable (hc0 : ¬cond2_0 i) (hc1 : cond2_1 i) (x0 x1 : Vec F S1024x1024 .f32) (x2 : Vec F S1024x512 .f32) (xs0 xs1 : Vec F S1024x512 .f32)
/-- Case C: each accumulator ends at one accumulate step over what it held. -/
theorem res2_C_acc : (res2_C (F := F) c i arg2 harg2 arg3 harg3 arg4 harg4 arg5 harg5 arg6 harg6 arg7 harg7 hc0 hc1 x0 x1 x2 xs0 xs1).2 = (k2_pay4 x0 x2 xs0, k2_pay5 x1 x2 xs1) := by
  unfold res2_C readBack2
  refine Prod.ext ?_ ?_ <;> dsimp only <;>
    first
    | rw [View.read_writes_eq_canon _ _ _ (scover2_C_0 c i arg2 harg2 arg3 harg3 arg4 harg4 arg5 harg5 arg6 harg6 arg7 harg7 hc0 hc1 x0 x1 x2 xs0 xs1)]
    | rw [View.read_writes_eq_canon _ _ _ (scover2_C_1 c i arg2 harg2 arg3 harg3 arg4 harg4 arg5 harg5 arg6 harg6 arg7 harg7 hc0 hc1 x0 x1 x2 xs0 xs1)]
  all_goals
    unfold kernelRun2_C
    dsimp only
    sl_unfold_words
    rw [View.canon_unit_zero hz2]
    simp only [View.readAt_eq_ld, harg2.read_unread, harg3.read_unread, harg4.read_unread, harg6.read_unread, harg7.read_unread, View.ld_unit_zero (S := S1024x1024) hz2,
      View.ld_unit_zero (S := S1024x512) hz2, View.readCov_unit_zero (S := S1024x512) _ hz2]

/-- Case C's output block is the two stepped accumulators side by side: the two stores' rectangles tile it. -/
theorem res2_C_out : (res2_C (F := F) c i arg2 harg2 arg3 harg3 arg4 harg4 arg5 harg5 arg6 harg6 arg7 harg7 hc0 hc1 x0 x1 x2 xs0 xs1).1 = halves2 (k2_pay4 x0 x2 xs0) (k2_pay5 x1 x2 xs1) := by
  unfold res2_C readBack2
  dsimp only
  rw [View.read_writes_eq_canon _ _ _ (cover2_C_3 c i arg2 harg2 arg3 harg3 arg4 harg4 arg5 harg5 arg6 harg6 arg7 harg7 hc0 hc1 x0 x1 x2 xs0 xs1)]
  unfold kernelRun2_C
  dsimp only
  sl_unfold_words
  simp only [View.readAt_eq_ld, harg2.read_unread, harg3.read_unread, harg4.read_unread, harg6.read_unread, harg7.read_unread, View.ld_unit_zero (S := S1024x1024) hz2,
    View.ld_unit_zero (S := S1024x512) hz2, View.readCov_unit_zero (S := S1024x512) _ hz2]
  funext y
  have hy0 : (y 0).val < 1024 := idx2_lt0 y
  have hy1 : (y 1).val < 1024 := idx2_lt1 y
  refine View.canon_apply_of_pieces (halves2 (k2_pay4 x0 x2 xs0) (k2_pay5 x1 x2 xs1)) _ ?_ y ?_
  · intro p hp x
    simp only [List.mem_cons, List.mem_singleton, List.not_mem_nil, or_false] at hp
    rcases hp with rfl | rfl
    · show k2_pay5 x1 x2 xs1 x = halves2 _ _ _
      have hx1 : (x 1).val < 512 := idx2_lt1 x
      unfold halves2
      rw [dif_neg (by rw [Rect.emb_apply]; show ¬ 512 + 1 * (x 1).val < 512; omega)]
      refine congrArg (k2_pay5 x1 x2 xs1) (Shape.idx_ext₂ ?_ ?_)
      · show (x 0).val = 0 + 1 * (x 0).val; omega
      · show (x 1).val = 512 + 1 * (x 1).val - 512; omega
    · show k2_pay4 x0 x2 xs0 x = halves2 _ _ _
      have hx1 : (x 1).val < 512 := idx2_lt1 x
      unfold halves2
      rw [dif_pos (by rw [Rect.emb_apply]; show 0 + 1 * (x 1).val < 512; omega)]
      refine congrArg (k2_pay4 x0 x2 xs0) (Shape.idx_ext₂ ?_ ?_)
      · show (x 0).val = 0 + 1 * (x 0).val; omega
      · show (x 1).val = 0 + 1 * (x 1).val; omega
  · by_cases h : (y 1).val < 512
    · refine ⟨_, List.mem_cons_of_mem _ (List.mem_singleton_self _), ?_⟩
      rw [Rect.mem_set_unit]
      intro a
      match a with
      | ⟨0, _⟩ => show 0 ≤ (y 0).val ∧ (y 0).val < 0 + 1024; omega
      | ⟨1, _⟩ => show 0 ≤ (y 1).val ∧ (y 1).val < 0 + 512; omega
    · refine ⟨_, List.mem_cons_self, ?_⟩
      rw [Rect.mem_set_unit]
      intro a
      match a with
      | ⟨0, _⟩ => show 0 ≤ (y 0).val ∧ (y 0).val < 0 + 1024; omega
      | ⟨1, _⟩ => show 512 ≤ (y 1).val ∧ (y 1).val < 512 + 512; omega
end

end

end Cert.KernelIdeal.H

end
-- ==== Proof.KI.Val2.lean ====
import proofs.«115011_j33217277067916_1_alg».proof.Proof.Gen.KernelIdeal.Launch
import proofs.«115011_j33217277067916_1_alg».proof.Proof.Gen.KernelIdeal.Skeleton
import proofs.«115011_j33217277067916_1_alg».proof.Proof.Gen.KernelIdeal.Points
import proofs.«115011_j33217277067916_1_alg».proof.Proof.KI.Reg2
import proofs.«115011_j33217277067916_1_alg».proof.Proof.KI.Val2.Pieces
import proofs.«115011_j33217277067916_1_alg».proof.Proof.KI.Val0
import proofs.«115011_j33217277067916_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (Sh Sh1 Arr)
open Idealize.ShloMosaic.ValueIdx
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem k2_pay4_apply (x0 : Vec Ideal S1024x1024 .f32) (x2 : Vec Ideal S1024x512 .f32) (acc : Vec Ideal S1024x512 .f32)
    (r : Fin 1024) (j : Fin 512) :
    k2_pay4 (F := Ideal) x0 x2 acc (ix2 r j) = acc (ix2 r j) + ∑ s : Fin 1024, x0 (ix2 r s) * x2 (ix2 s j) := by
  unfold k2_pay4 k2_pay3
  simp only [shapeCast_self]
  refine (addf_apply _ _ _).trans ?_
  exact congrArg (acc (ix2 r j) + ·) (mm_apply _ _ r j)

theorem k2_pay1_apply (i : S1024x512.Idx) : k2_pay1 (F := Ideal) i = 0 := by
  unfold k2_pay1
  simp only [shapeCast_self]
  exact Ideal.ofBits_zero_f32

def term2 (a : Vec Ideal S8192x8192 .f32) (f : Vec Ideal S8192x512 .f32) (row : Fin 8192) (j : Fin 512) (k : ℕ) : EReal :=
  if h : k < 8192 then a (ix2 row ⟨k, h⟩) * f (ix2 ⟨k, h⟩ j) else 0

theorem sum_term2 (a : Vec Ideal S8192x8192 .f32) (f : Vec Ideal S8192x512 .f32) (row : Fin 8192) (j : Fin 512) :
    ∑ k ∈ Finset.range 8192, term2 a f row j k = ∑ k : Fin 8192, a (ix2 row k) * f (ix2 k j) := by
  rw [← Fin.sum_univ_eq_sum_range (fun k => term2 a f row j k) 8192]
  refine Finset.sum_congr rfl fun k _ => ?_
  unfold term2
  rw [dif_pos k.isLt]

theorem blockSum2 (a : Vec Ideal S8192x8192 .f32) (f : Vec Ideal S8192x512 .f32)
    (x0 : Vec Ideal S1024x1024 .f32) (x2 : Vec Ideal S1024x512 .f32) (i b : ℕ) (hi : i < 8) (hb : b < 8)
    (h0 : ∀ (r s : Fin 1024), x0 (ix2 r s) = a (ix2 ⟨1024 * i + r.val, by omega⟩ ⟨1024 * b + s.val, by omega⟩))
    (h2 : ∀ (s : Fin 1024) (j : Fin 512), x2 (ix2 s j) = f (ix2 ⟨1024 * b + s.val, by omega⟩ j))
    (r : Fin 1024) (j : Fin 512) :
    ∑ s : Fin 1024, x0 (ix2 r s) * x2 (ix2 s j)
      = ∑ x ∈ Finset.range 1024, term2 a f ⟨1024 * i + r.val, by omega⟩ j (1024 * b + x) := by
  rw [← Fin.sum_univ_eq_sum_range (fun x => term2 a f ⟨1024 * i + r.val, by omega⟩ j (1024 * b + x)) 1024]
  refine Finset.sum_congr rfl fun s _ => ?_
  unfold term2
  rw [dif_pos (by have := s.isLt; omega), h0 r s, h2 s j]

theorem sum_blocks2_zero (g : ℕ → EReal) : (0 : EReal) = ∑ k ∈ Finset.range (1024 * 0), g k := by
  rw [Nat.mul_zero, Finset.range_zero, Finset.sum_empty]

theorem sum_blocks2_succ (g : ℕ → EReal) (b : ℕ) :
    ∑ k ∈ Finset.range (1024 * b), g k + ∑ x ∈ Finset.range 1024, g (1024 * b + x)
      = ∑ k ∈ Finset.range (1024 * (b + 1)), g k := by
  rw [Nat.mul_succ, Finset.sum_range_add]

theorem acc2_step0 (a : Vec Ideal S8192x8192 .f32) (f : Vec Ideal S8192x512 .f32)
    (x0 : Vec Ideal S1024x1024 .f32) (x2 : Vec Ideal S1024x512 .f32) (acc : Vec Ideal S1024x512 .f32)
    (i b : ℕ) (hi : i < 8) (hb : b < 8)
    (h0 : ∀ (r s : Fin 1024), x0 (ix2 r s) = a (ix2 ⟨1024 * i + r.val, by omega⟩ ⟨1024 * b + s.val, by omega⟩))
    (h2 : ∀ (s : Fin 1024) (j : Fin 512), x2 (ix2 s j) = f (ix2 ⟨1024 * b + s.val, by omega⟩ j))
    (r : Fin 1024) (j : Fin 512)
    (hacc : acc (ix2 r j) = ∑ k ∈ Finset.range (1024 * b), term2 a f ⟨1024 * i + r.val, by omega⟩ j k) :
    k2_pay4 (F := Ideal) x0 x2 acc (ix2 r j)
      = ∑ k ∈ Finset.range (1024 * (b + 1)), term2 a f ⟨1024 * i + r.val, by omega⟩ j k :=
  (k2_pay4_apply x0 x2 acc r j).trans
    ((congrArg₂ (· + ·) hacc (blockSum2 a f x0 x2 i b hi hb h0 h2 r j)).trans (sum_blocks2_succ _ b))

abbrev blkA2 (c : Dev nD) (t : Fin cfg2.N) : Vec F S1024x1024 .f32 := iblk2 V c 0 t
abbrev blkB2 (c : Dev nD) (t : Fin cfg2.N) : Vec F S1024x1024 .f32 := iblk2 V c 1 t
abbrev blkF2 (c : Dev nD) (t : Fin cfg2.N) : Vec F S1024x512 .f32 := iblk2 V c 2 t
abbrev arrA2 (c : Dev nD) : Vec F S8192x8192 .f32 := V c main_arg1
abbrev arrB2 (c : Dev nD) : Vec F S8192x8192 .f32 := V c main_arg2
abbrev arrF2 (c : Dev nD) : Vec F S8192x512 .f32 := V c main_v22

theorem idx_facts2 : ∀ t : Fin cfg2.N, win2_0.index t (0 : Fin 2) = t.val / 8 ∧ win2_0.index t (1 : Fin 2) = t.val % 8
    ∧ win2_1.index t (0 : Fin 2) = t.val / 8 ∧ win2_1.index t (1 : Fin 2) = t.val % 8
    ∧ win2_2.index t (0 : Fin 2) = t.val % 8 ∧ win2_2.index t (1 : Fin 2) = 0
    ∧ win2_3.index t (0 : Fin 2) = t.val / 8 ∧ win2_3.index t (1 : Fin 2) = 0 :=
  (by decide +kernel : ∀ t : Fin grid2.N, _)

theorem blkA2_apply (c : Dev nD) (t : Fin cfg2.N) (i b : ℕ) (hi : i < 8) (hb : b < 8) (e : t.val = 8 * i + b)
    (r s : Fin 1024) :
    blkA2 V c t (ix2 r s) = arrA2 V c (ix2 ⟨1024 * i + r.val, by omega⟩ ⟨1024 * b + s.val, by omega⟩) := by
  obtain ⟨e0, e1, -⟩ := idx_facts2 t
  show iblk2 V c 0 t (ix2 r s) = V c main_arg1 _
  unfold iblk2
  rw [View.read_apply]
  show V c main_arg1 _ = V c main_arg1 _
  congr 1
  funext a
  apply Fin.ext
  match a with
  | ⟨0, _⟩ => show win2_0.index t 0 * 1024 + 1 * r.val = 1024 * i + r.val; rw [e0]; omega
  | ⟨1, _⟩ => show win2_0.index t 1 * 1024 + 1 * s.val = 1024 * b + s.val; rw [e1]; omega

theorem blkB2_apply (c : Dev nD) (t : Fin cfg2.N) (i b : ℕ) (hi : i < 8) (hb : b < 8) (e : t.val = 8 * i + b)
    (r s : Fin 1024) :
    blkB2 V c t (ix2 r s) = arrB2 V c (ix2 ⟨1024 * i + r.val, by omega⟩ ⟨1024 * b + s.val, by omega⟩) := by
  obtain ⟨-, -, e0, e1, -⟩ := idx_facts2 t
  show iblk2 V c 1 t (ix2 r s) = V c main_arg2 _
  unfold iblk2
  rw [View.read_apply]
  show V c main_arg2 _ = V c main_arg2 _
  congr 1
  funext a
  apply Fin.ext
  match a with
  | ⟨0, _⟩ => show win2_1.index t 0 * 1024 + 1 * r.val = 1024 * i + r.val; rw [e0]; omega
  | ⟨1, _⟩ => show win2_1.index t 1 * 1024 + 1 * s.val = 1024 * b + s.val; rw [e1]; omega

theorem blkF2_apply (c : Dev nD) (t : Fin cfg2.N) (i b : ℕ) (hi : i < 8) (hb : b < 8) (e : t.val = 8 * i + b)
    (s : Fin 1024) (j : Fin 512) :
    blkF2 V c t (ix2 s j) = arrF2 V c (ix2 ⟨1024 * b + s.val, by omega⟩ j) := by
  obtain ⟨-, -, -, -, e0, e1, -⟩ := idx_facts2 t
  show iblk2 V c 2 t (ix2 s j) = V c main_v22 _
  unfold iblk2
  rw [View.read_apply]
  show V c main_v22 _ = V c main_v22 _
  congr 1
  funext a
  apply Fin.ext
  match a with
  | ⟨0, _⟩ => show win2_2.index t 0 * 1024 + 1 * s.val = 1024 * b + s.val; rw [e0]; omega
  | ⟨1, _⟩ => show win2_2.index t 1 * 512 + 1 * j.val = j.val; rw [e1]; omega

theorem halves2_apply_lt (P Q : Vec F S1024x512 .f32) (p : Fin 1024) (q : Fin 1024) (h : q.val < 512) :
    halves2 P Q (ix2 p q) = P (ix2 p ⟨q.val, h⟩) := dif_pos h
theorem halves2_apply_ge (P Q : Vec F S1024x512 .f32) (p : Fin 1024) (q : Fin 1024) (h : ¬q.val < 512) :
    halves2 P Q (ix2 p q) = Q (ix2 p ⟨q.val - 512, by have := q.isLt; omega⟩) := dif_neg h

theorem agg2_apply_lt (a1 a2 : Arr (Sh 8192 8192)) (f : Arr (Sh 8192 512)) (row : Fin 8192) (col : Fin 1024) (h : col.val < 512) :
    Cert.Spec.agg2 a1 a2 f (ix2 row col) = ∑ k : Fin 8192, a1 (ix2 row k) * f (ix2 k ⟨col.val, h⟩) := dif_pos h

theorem agg2_apply_ge (a1 a2 : Arr (Sh 8192 8192)) (f : Arr (Sh 8192 512)) (row : Fin 8192) (col : Fin 1024) (h : ¬col.val < 512) :
    Cert.Spec.agg2 a1 a2 f (ix2 row col)
      = ∑ k : Fin 8192, a2 (ix2 row k) * f (ix2 k ⟨col.val - 512, by have := col.isLt; omega⟩) := dif_neg h

/-- The accumulators after point `t`: one accumulate step over what they held, zeros at the first point of each run of 8. -/
theorem acc2_at (c : Dev nD) (t : Fin cfg2.N) :
    (outsAt2 V c t.val t.isLt).2
      = (k2_pay4 (blkA2 V c t) (blkF2 V c t) (if t.val % 8 = 0 then k2_pay1 else (prev2 V c t).1),
        k2_pay4 (blkB2 V c t) (blkF2 V c t) (if t.val % 8 = 0 then k2_pay1 else (prev2 V c t).2)) := by
  by_cases h0 : t.val % 8 = 0
  · have h1 : ¬t.val % 8 = 7 := by omega
    rw [if_pos h0, if_pos h0, outsAt2_A V c t h0 h1]
    exact res2_A_acc c (grid2.coords t) _ _ _ _ _ _ _ _ _ _ _ _ ((hcond2_0 t).mpr h0) (fun h => h1 ((hcond2_1 t).mp h)) (blkA2 V c t) (blkB2 V c t) (blkF2 V c t)
  · rw [if_neg h0, if_neg h0]
    by_cases h1 : t.val % 8 = 7
    · rw [outsAt2_C V c t h0 h1]
      exact res2_C_acc c (grid2.coords t) _ _ _ _ _ _ _ _ _ _ _ _ (fun h => h0 ((hcond2_0 t).mp h)) ((hcond2_1 t).mpr h1) (blkA2 V c t) (blkB2 V c t) (blkF2 V c t) _ _
    · rw [outsAt2_B V c t h0 h1]
      exact res2_B_acc c (grid2.coords t) _ _ _ _ _ _ _ _ _ _ _ _ (fun h => h0 ((hcond2_0 t).mp h)) (fun h => h1 ((hcond2_1 t).mp h)) (blkA2 V c t) (blkB2 V c t) (blkF2 V c t) _ _

/-- The output block a last point of a run stores: the two stepped accumulators side by side. -/
theorem out2_at (c : Dev nD) (t : Fin cfg2.N) (h0 : ¬t.val % 8 = 0) (h1 : t.val % 8 = 7) :
    (outsAt2 V c t.val t.isLt).1
      = halves2 (k2_pay4 (blkA2 V c t) (blkF2 V c t) (prev2 V c t).1) (k2_pay4 (blkB2 V c t) (blkF2 V c t) (prev2 V c t).2) := by
  rw [outsAt2_C V c t h0 h1]
  exact res2_C_out c (grid2.coords t) _ _ _ _ _ _ _ _ _ _ _ _ (fun h => h0 ((hcond2_0 t).mp h)) ((hcond2_1 t).mpr h1) (blkA2 V c t) (blkB2 V c t) (blkF2 V c t) _ _

section AtIdeal2
variable (V : (c : Dev nD) → (b : Ref sig .tc) → Buf (Elt Ideal) ((c : Thread nD τ).loc b))

/-- After point 8·i + kk each accumulator holds the sum over the first 1024·(kk + 1) depths of its adjacency's row against the features' column. -/
theorem outsAt2_inv (c : Dev nD) (n : ℕ) : ∀ (hn : n < cfg2.N) (i kk : ℕ) (hi : i < 8) (hkk : kk < 8) (e : n = 8 * i + kk)
    (r : Fin 1024) (j : Fin 512),
    (outsAt2 V c n hn).2.1 (ix2 r j)
        = ∑ k ∈ Finset.range (1024 * (kk + 1)), term2 (arrA2 V c) (arrF2 V c) ⟨1024 * i + r.val, by omega⟩ j k
    ∧ (outsAt2 V c n hn).2.2 (ix2 r j)
        = ∑ k ∈ Finset.range (1024 * (kk + 1)), term2 (arrB2 V c) (arrF2 V c) ⟨1024 * i + r.val, by omega⟩ j k := by
  induction n using Nat.strong_induction_on with
  | _ n ih =>
    intro hn i kk hi hkk e r j
    have hN : cfg2.N = 64 := N_2
    rw [acc2_at V c ⟨n, hn⟩]
    dsimp only
    have hA := fun b hb (e : n = 8 * i + b) r s => blkA2_apply V c ⟨n, hn⟩ i b hi hb e r s
    have hB := fun b hb (e : n = 8 * i + b) r s => blkB2_apply V c ⟨n, hn⟩ i b hi hb e r s
    have hF := fun b hb (e : n = 8 * i + b) s j => blkF2_apply V c ⟨n, hn⟩ i b hi hb e s j
    rcases kk with _ | kk
    · have h0 : n % 8 = 0 := by omega
      rw [if_pos h0, if_pos h0]
      exact ⟨acc2_step0 _ _ _ _ _ i 0 hi hkk (hA 0 hkk e) (hF 0 hkk e) r j ((k2_pay1_apply _).trans (sum_blocks2_zero _)),
        acc2_step0 _ _ _ _ _ i 0 hi hkk (hB 0 hkk e) (hF 0 hkk e) r j ((k2_pay1_apply _).trans (sum_blocks2_zero _))⟩
    · have h0 : ¬n % 8 = 0 := by omega
      rw [if_neg h0, if_neg h0]
      have hp := ih (n - 1) (by omega) (Nat.lt_of_le_of_lt (Nat.sub_le _ _) hn) i kk hi (by omega) (by omega) r j
      exact ⟨acc2_step0 _ _ _ _ _ i (kk + 1) hi hkk (hA _ hkk e) (hF _ hkk e) r j hp.1,
        acc2_step0 _ _ _ _ _ i (kk + 1) hi hkk (hB _ hkk e) (hF _ hkk e) r j hp.2⟩

theorem flushed2_eq (c : Dev nD) (t : Fin cfg2.N) (hfl : (cfg2.win 3).flush t = true) :
    (dat2 V c).flushed 3 t
      = ((cfg2.win 3).blk t).view.read (Elt Ideal) (Cert.Spec.agg2 (arrA2 V c) (arrB2 V c) (arrF2 V c)) := by
  have hN : cfg2.N = 64 := N_2
  have ht := t.isLt
  have h7 : t.val % 8 = 7 := (flush2_3 t).mp hfl
  have h0 : ¬t.val % 8 = 0 := by omega
  have hi : t.val / 8 < 8 := by omega
  have e : t.val = 8 * (t.val / 8) + (6 + 1) := by omega
  have e' : t.val - 1 = 8 * (t.val / 8) + 6 := by omega
  obtain ⟨-, -, -, -, -, -, e30, e31⟩ := idx_facts2 t
  show (cfg2.win 3).cut (grid2.coords t) ((dat2 V c).after 3 t) = _
  rw [after2_3, out2_at V c t h0 h7]
  funext y
  obtain ⟨p, q, rfl⟩ : ∃ (p : Fin 1024) (q : Fin 1024), y = ix2 p q := ⟨y 0, y 1, eq_ix2 y⟩
  rw [View.read_apply]
  have hemb : ((cfg2.win 3).blk t).view.emb (ix2 p q) = ix2 (⟨1024 * (t.val / 8) + p.val, by omega⟩ : Fin 8192) q := by
    funext a
    apply Fin.ext
    match a with
    | ⟨0, _⟩ => show win2_3.index t 0 * 1024 + 1 * p.val = 1024 * (t.val / 8) + p.val; rw [e30]; omega
    | ⟨1, _⟩ => show win2_3.index t 1 * 1024 + 1 * q.val = q.val; rw [e31]; omega
  have hp := outsAt2_inv V c (t.val - 1) (Nat.lt_of_le_of_lt (Nat.sub_le _ _) t.isLt) (t.val / 8) 6 hi (by omega) e' p
  show halves2 (F := Ideal) _ _ (ix2 p q) = Cert.Spec.agg2 (arrA2 V c) (arrB2 V c) (arrF2 V c) (((cfg2.win 3).blk t).view.emb (ix2 p q))
  rw [hemb]
  by_cases hq : q.val < 512
  · rw [halves2_apply_lt _ _ p q hq, agg2_apply_lt _ _ _ _ q hq, ← sum_term2]
    exact acc2_step0 (arrA2 V c) (arrF2 V c) (blkA2 V c t) (blkF2 V c t) (prev2 V c t).1 (t.val / 8) (6 + 1) hi (by omega)
      (fun r s => blkA2_apply V c t (t.val / 8) (6 + 1) hi (by omega) e r s)
      (fun s j => blkF2_apply V c t (t.val / 8) (6 + 1) hi (by omega) e s j) p ⟨q.val, hq⟩ (hp ⟨q.val, hq⟩).1
  · rw [halves2_apply_ge _ _ p q hq, agg2_apply_ge _ _ _ _ q hq, ← sum_term2]
    exact acc2_step0 (arrB2 V c) (arrF2 V c) (blkB2 V c t) (blkF2 V c t) (prev2 V c t).2 (t.val / 8) (6 + 1) hi (by omega)
      (fun r s => blkB2_apply V c t (t.val / 8) (6 + 1) hi (by omega) e r s)
      (fun s j => blkF2_apply V c t (t.val / 8) (6 + 1) hi (by omega) e s j) p ⟨q.val - 512, by have := q.isLt; omega⟩
      (hp ⟨q.val - 512, by have := q.isLt; omega⟩).2

theorem cover2 (i : S8192x1024.Idx) :
    ∃ t : Fin cfg2.N, (cfg2.win 3).flush t = true ∧ i ∈ ((cfg2.win 3).blk t).view.set := by
  have hN : cfg2.N = 64 := N_2
  have hi0 : (i 0).val < 8192 := idx2_lt0 i
  have hi1 : (i 1).val < 1024 := idx2_lt1 i
  have htN : 8 * ((i 0).val / 1024) + 7 < cfg2.N := by omega
  obtain ⟨-, -, -, -, -, -, e30, e31⟩ := idx_facts2 ⟨8 * ((i 0).val / 1024) + 7, htN⟩
  have e30' : win2_3.index ⟨8 * ((i 0).val / 1024) + 7, htN⟩ (0 : Fin 2) = (i 0).val / 1024 := by
    rw [e30]; show (8 * ((i 0).val / 1024) + 7) / 8 = _; omega
  refine ⟨⟨8 * ((i 0).val / 1024) + 7, htN⟩, (flush2_3 _).mpr (by show (8 * ((i 0).val / 1024) + 7) % 8 = 7; omega), ?_⟩
  show i ∈ ((View.whole main_v23).slice (win2_3.rect ⟨8 * ((i 0).val / 1024) + 7, htN⟩)).set
  rw [View.set_slice_whole, Rect.mem_set_unit]
  intro a
  match a with
  | ⟨0, _⟩ =>
    show win2_3.index ⟨8 * ((i 0).val / 1024) + 7, htN⟩ 0 * 1024 ≤ (i 0).val
      ∧ (i 0).val < win2_3.index ⟨8 * ((i 0).val / 1024) + 7, htN⟩ 0 * 1024 + 1024
    rw [e30']; omega
  | ⟨1, _⟩ =>
    show win2_3.index ⟨8 * ((i 0).val / 1024) + 7, htN⟩ 1 * 1024 ≤ (i 1).val
      ∧ (i 1).val < win2_3.index ⟨8 * ((i 0).val / 1024) + 7, htN⟩ 1 * 1024 + 1024
    rw [e31]; omega

theorem final2 (c : Dev nD) (a1 a2 : Arr (Sh 8192 8192)) (f : Arr (Sh 8192 512))
    (h1 : (V c main_arg1 : Arr (Sh 8192 8192)) = a1) (h2 : (V c main_arg2 : Arr (Sh 8192 8192)) = a2)
    (hf : (V c main_v22 : Arr (Sh 8192 512)) = f) :
    (dat2 (F := Ideal) V c).arrAt 3 cfg2.N = Cert.Spec.agg2 a1 a2 f := by
  subst h1 h2 hf
  exact (dat2 V c).arrAt_eq_of_cover 3 (Cert.Spec.agg2 (arrA2 V c) (arrB2 V c) (arrF2 V c)) (flushed2_eq V c) cover2

end AtIdeal2

end Cert.KernelIdeal.H

end
-- ==== Proof.KI.Val3.lean ====
import proofs.«115011_j33217277067916_1_alg».proof.Proof.KI.Reg3
import proofs.«115011_j33217277067916_1_alg».proof.Proof.KI.Val0
noncomputable section
namespace Cert.KernelIdeal.H
open Cert.KernelIdeal Cert.KernelIdeal.Gen
open Idealize.ShloMosaic Idealize.ShloMosaic.TcCoe Idealize.ShloMosaic.Tactic
open Idealize.SL Idealize.SL.Sem
open Cert.Spec (Sh Sh1 Arr)
open Idealize.ShloMosaic.ValueIdx
open scoped BigOperators

theorem hz00 : (![0, 0] : Fin 2 → Nat) = fun _ => 0 := funext fun a => by fin_cases a <;> rfl

-- What the body leaves in the output block at (p, q): the three sums of products, added left to right, plus the bias entry.
theorem out3_7_apply (x0 : Vec Ideal S1024x256 .f32) (x1 : Vec Ideal S1024x512 .f32) (x2 : Vec Ideal S1024x1024 .f32)
    (x3 : Vec Ideal S256x64 .f32) (x4 : Vec Ideal S512x64 .f32) (x5 : Vec Ideal S1024x64 .f32) (x6 : Vec Ideal S1x64 .f32)
    (p : Fin 1024) (q : Fin 64) :
    out3_7 x0 x1 x2 x3 x4 x5 x6 (ix2 p q)
      = (((∑ k : Fin 256, x0 (ix2 p k) * x3 (ix2 k q)) + (∑ k : Fin 512, x1 (ix2 p k) * x4 (ix2 k q)))
          + (∑ k : Fin 1024, x2 (ix2 p k) * x5 (ix2 k q))) + x6 (ix2 0 q) := by
  unfold out3_7
  rw [View.canon_unit_zero hz00]
  simp only [View.ld_unit_zero (S := S1024x256) hz00, View.ld_unit_zero (S := S1024x512) hz00, View.ld_unit_zero (S := S1024x1024) hz00,
    View.ld_unit_zero (S := S256x64) hz00, View.ld_unit_zero (S := S512x64) hz00, View.ld_unit_zero (S := S1024x64) hz00,
    View.ld_unit_zero (S := S1x64) hz00]
  unfold k3_pay1
  simp only [shapeCast_self]
  rw [addf_apply, addf_apply, addf_apply]
  exact congrArg₂ (· + ·) (congrArg₂ (· + ·) (congrArg₂ (· + ·) (mm_apply _ _ p q) (mm_apply _ _ p q)) (mm_apply _ _ p q))
    (broadcastTo_1b_ab_apply _ _ p q)

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

def row3 (t : Fin cfg3.N) (p : Fin 1024) : Fin 8192 :=
  ⟨t.val * 1024 + p.val, by have := lt_of_lt_of_eq t.isLt N_3; have := p.isLt; omega⟩

-- Row r of the result is in the block of point r / 1024.
theorem cover3_7_arr (i : S8192x64.Idx) : ∃ t : Fin cfg3.N, (cfg3.win 7).flush t = true ∧ i ∈ ((cfg3.win 7).blk t).view.set := by
  have hi0 : (i 0).val < 8192 := (i 0).isLt
  have hi1 : (i 1).val < 64 := (i 1).isLt
  obtain ⟨t, ht⟩ : ∃ t : Fin cfg3.N, t.val = (i 0).val / 1024 := ⟨⟨(i 0).val / 1024, by rw [show cfg3.N = 8 from N_3]; omega⟩, rfl⟩
  have e := idx_facts3 t
  refine ⟨t, flush3_7 t, ?_⟩
  show i ∈ ((View.whole main_v31).slice (win3_7.rect t)).set
  rw [View.set_slice_whole, Rect.mem_set_unit]
  intro a
  match a with
  | ⟨0, _⟩ => show win3_7.index t (0 : Fin 2) * 1024 ≤ (i 0).val ∧ (i 0).val < win3_7.index t (0 : Fin 2) * 1024 + 1024; omega
  | ⟨1, _⟩ => show win3_7.index t (1 : Fin 2) * 64 ≤ (i 1).val ∧ (i 1).val < win3_7.index t (1 : Fin 2) * 64 + 64; omega

-- The output block of point t is rows 1024·t … of the projection: each block entry is its array's entry where the block sits.
theorem final3 (V : (c : Dev nD) → (b : Ref sig .tc) → Buf (Elt Ideal) ((c : Thread nD τ).loc b)) (c : Dev nD)
    (h : Arr (Sh 8192 256)) (z : Arr (Sh 8192 512)) (z2 : Arr (Sh 8192 1024)) (wf : Arr (Sh 64 1792)) (bf : Arr (Sh1 64))
    (hh : (V c main_v2 : Arr (Sh 8192 256)) = h) (hz : (V c main_v22 : Arr (Sh 8192 512)) = z) (hz2 : (V c main_v23 : Arr (Sh 8192 1024)) = z2)
    (h25 : ∀ (k : Fin 256) (o : Fin 64), (V c main_v25 : Arr (Sh 256 64)) (ix2 k o) = wf (ix2 o (⟨k.val, by have := k.isLt; omega⟩ : Fin 1792)))
    (h27 : ∀ (k : Fin 512) (o : Fin 64), (V c main_v27 : Arr (Sh 512 64)) (ix2 k o) = wf (ix2 o (⟨256 + k.val, by have := k.isLt; omega⟩ : Fin 1792)))
    (h29 : ∀ (k : Fin 1024) (o : Fin 64), (V c main_v29 : Arr (Sh 1024 64)) (ix2 k o) = wf (ix2 o (⟨768 + k.val, by have := k.isLt; omega⟩ : Fin 1792)))
    (h30 : ∀ o : Fin 64, (V c main_v30 : Arr (Sh 1 64)) (ix2 0 o) = bf (ix1 o)) :
    (dat3 (F := Ideal) V c).arrAt 7 cfg3.N = Cert.Spec.proj h z z2 wf bf := by
  subst hh hz hz2
  refine (dat3 (F := Ideal) V c).arrAt_eq_of_cover 7 _ (fun t _ => ?_) cover3_7_arr
  show (cfg3.win 7).cut (grid3.coords t) ((dat3 V c).after 7 t) = _
  rw [after3_7]
  funext j
  obtain ⟨p, q, rfl⟩ : ∃ (p : Fin 1024) (q : Fin 64), j = ix2 p q := ⟨j 0, j 1, eq_ix2 j⟩
  refine (out3_7_apply _ _ _ _ _ _ _ p q).trans ?_
  have e := idx_facts3 t
  have e7 : ((cfg3.win 7).blk t).view.emb (ix2 p q) = ix2 (row3 t p) q := ix2_of_val
    (by show win3_7.index t (0 : Fin 2) * 1024 + 1 * p.val = t.val * 1024 + p.val; omega)
    (by show win3_7.index t (1 : Fin 2) * 64 + 1 * q.val = q.val; omega)
  have h0 : ∀ k : Fin 256, iblk3 V c 0 t (ix2 p k) = V c main_v2 (ix2 (row3 t p) k) := fun k => congrArg (V c main_v2) (ix2_of_val
    (by show win3_0.index t (0 : Fin 2) * 1024 + 1 * p.val = t.val * 1024 + p.val; omega)
    (by show win3_0.index t (1 : Fin 2) * 256 + 1 * k.val = k.val; omega))
  have h1 : ∀ k : Fin 512, iblk3 V c 1 t (ix2 p k) = V c main_v22 (ix2 (row3 t p) k) := fun k => congrArg (V c main_v22) (ix2_of_val
    (by show win3_1.index t (0 : Fin 2) * 1024 + 1 * p.val = t.val * 1024 + p.val; omega)
    (by show win3_1.index t (1 : Fin 2) * 512 + 1 * k.val = k.val; omega))
  have h2 : ∀ k : Fin 1024, iblk3 V c 2 t (ix2 p k) = V c main_v23 (ix2 (row3 t p) k) := fun k => congrArg (V c main_v23) (ix2_of_val
    (by show win3_2.index t (0 : Fin 2) * 1024 + 1 * p.val = t.val * 1024 + p.val; omega)
    (by show win3_2.index t (1 : Fin 2) * 1024 + 1 * k.val = k.val; omega))
  have h3 : ∀ k : Fin 256, iblk3 V c 3 t (ix2 k q) = V c main_v25 (ix2 k q) := fun k => congrArg (V c main_v25) (ix2_of_val
    (by show win3_3.index t (0 : Fin 2) * 256 + 1 * k.val = k.val; omega)
    (by show win3_3.index t (1 : Fin 2) * 64 + 1 * q.val = q.val; omega))
  have h4 : ∀ k : Fin 512, iblk3 V c 4 t (ix2 k q) = V c main_v27 (ix2 k q) := fun k => congrArg (V c main_v27) (ix2_of_val
    (by show win3_4.index t (0 : Fin 2) * 512 + 1 * k.val = k.val; omega)
    (by show win3_4.index t (1 : Fin 2) * 64 + 1 * q.val = q.val; omega))
  have h5 : ∀ k : Fin 1024, iblk3 V c 5 t (ix2 k q) = V c main_v29 (ix2 k q) := fun k => congrArg (V c main_v29) (ix2_of_val
    (by show win3_5.index t (0 : Fin 2) * 1024 + 1 * k.val = k.val; omega)
    (by show win3_5.index t (1 : Fin 2) * 64 + 1 * q.val = q.val; omega))
  have h6 : iblk3 V c 6 t (ix2 0 q) = V c main_v30 (ix2 0 q) := congrArg (V c main_v30) (ix2_of_val
    (by show win3_6.index t (0 : Fin 2) * 1 + 1 * (0 : Fin 1).val = (0 : Fin 1).val; omega)
    (by show win3_6.index t (1 : Fin 2) * 64 + 1 * q.val = q.val; omega))
  show _ = Cert.Spec.proj _ _ _ wf bf (((cfg3.win 7).blk t).view.emb (ix2 p q))
  rw [e7]
  simp only [h0, h1, h2, h3, h4, h5, h6, h25, h27, h29, h30]
  rfl

-- After the host stretch a weight block is a column group of the 64×1792 weight, transposed, and the bias row the bias.
theorem host3_v25 (W : Valuation τ sig (Elt Ideal)) (k : Fin 256) (o : Fin 64) :
    (StableHlo.after hostOps3 W (Proc.devRef .tc main_v25) : Arr (Sh 256 64)) (ix2 k o)
      = (W (Proc.devRef .tc main_arg7) : Arr (Sh 64 1792)) (ix2 o (⟨k.val, by have := k.isLt; omega⟩ : Fin 1792)) := by
  after_results
  exact (transpose_ix2_apply _ _ k o).trans (extractStridedSlice_apply _ _ _ (ix2 o k) _ fun a => match a with
    | ⟨0, _⟩ => (Nat.zero_add _).symm
    | ⟨1, _⟩ => (Nat.zero_add _).symm)

theorem host3_v27 (W : Valuation τ sig (Elt Ideal)) (k : Fin 512) (o : Fin 64) :
    (StableHlo.after hostOps3 W (Proc.devRef .tc main_v27) : Arr (Sh 512 64)) (ix2 k o)
      = (W (Proc.devRef .tc main_arg7) : Arr (Sh 64 1792)) (ix2 o (⟨256 + k.val, by have := k.isLt; omega⟩ : Fin 1792)) := by
  after_results
  exact (transpose_ix2_apply _ _ k o).trans (extractStridedSlice_apply _ _ _ (ix2 o k) _ fun a => match a with
    | ⟨0, _⟩ => (Nat.zero_add _).symm
    | ⟨1, _⟩ => rfl)

theorem host3_v29 (W : Valuation τ sig (Elt Ideal)) (k : Fin 1024) (o : Fin 64) :
    (StableHlo.after hostOps3 W (Proc.devRef .tc main_v29) : Arr (Sh 1024 64)) (ix2 k o)
      = (W (Proc.devRef .tc main_arg7) : Arr (Sh 64 1792)) (ix2 o (⟨768 + k.val, by have := k.isLt; omega⟩ : Fin 1792)) := by
  after_results
  exact (transpose_ix2_apply _ _ k o).trans (extractStridedSlice_apply _ _ _ (ix2 o k) _ fun a => match a with
    | ⟨0, _⟩ => (Nat.zero_add _).symm
    | ⟨1, _⟩ => rfl)

theorem host3_v30 (W : Valuation τ sig (Elt Ideal)) (o : Fin 64) :
    (StableHlo.after hostOps3 W (Proc.devRef .tc main_v30) : Arr (Sh 1 64)) (ix2 0 o)
      = (W (Proc.devRef .tc main_arg8) : Arr (Sh1 64)) (ix1 o) := by
  after_results
  exact shapeCast_a_1a_apply _ _ _ o

end Cert.KernelIdeal.H
end
-- ==== Proof.KI.Value.lean ====
import proofs.«115011_j33217277067916_1_alg».proof.Proof.KI.Frame
import proofs.«115011_j33217277067916_1_alg».proof.Proof.KI.Host
import proofs.«115011_j33217277067916_1_alg».proof.Proof.KI.Val0
import proofs.«115011_j33217277067916_1_alg».proof.Proof.KI.Val1
import proofs.«115011_j33217277067916_1_alg».proof.Proof.KI.Val2
import proofs.«115011_j33217277067916_1_alg».proof.Proof.KI.Val3
noncomputable section
namespace Cert.KernelIdeal.H
open Cert.KernelIdeal Cert.KernelIdeal.Gen
open Idealize.ShloMosaic Idealize.ShloMosaic.TcCoe Idealize.ShloMosaic.ValueIdx
open Idealize.SL Idealize.SL.Sem
open Cert.Spec (Sh Sh1 Arr)
variable (m : (ℓ : Loc nD τ sig) → Buf (Elt Ideal) ℓ) (ρ : Dev nD → PrngReg)
abbrev aX (c : Dev nD) : Arr (Sh 8192 512) := m (c.tc.loc main_arg0)
abbrev aA1 (c : Dev nD) : Arr (Sh 8192 8192) := m (c.tc.loc main_arg1)
abbrev aA2 (c : Dev nD) : Arr (Sh 8192 8192) := m (c.tc.loc main_arg2)
abbrev aW (c : Dev nD) : Arr (Sh 256 512) := m (c.tc.loc main_arg3)
abbrev aB (c : Dev nD) : Arr (Sh1 256) := m (c.tc.loc main_arg4)
abbrev aG (c : Dev nD) : Arr (Sh1 512) := m (c.tc.loc main_arg5)
abbrev aBt (c : Dev nD) : Arr (Sh1 512) := m (c.tc.loc main_arg6)
abbrev aWf (c : Dev nD) : Arr (Sh 64 1792) := m (c.tc.loc main_arg7)
abbrev aBf (c : Dev nD) : Arr (Sh1 64) := m (c.tc.loc main_arg8)
def kH (c : Dev nD) : Arr (Sh 8192 256) := Cert.Spec.embed (aX m c) (aW m c) (aB m c)
def kZ (c : Dev nD) : Arr (Sh 8192 512) :=
  Cert.ReferenceIdeal.RefRun.bn (F := Ideal) (Cert.Spec.agg1 (aA1 m c) (aA2 m c) (kH m c)) (aG m c) (aBt m c)
def kZ2 (c : Dev nD) : Arr (Sh 8192 1024) := Cert.Spec.agg2 (aA1 m c) (aA2 m c) (kZ m c)
def kOut (c : Dev nD) : Arr (Sh 8192 64) := Cert.Spec.proj (kH m c) (kZ m c) (kZ2 m c) (aWf m c) (aBf m c)
theorem W2_v2 (c : Dev nD) : (W2 m ρ c (Proc.devRef .tc main_v2) : Arr (Sh 8192 256)) = kH m c :=
  (W2_arr m ρ c 3).trans (final0 (V1 m ρ) c (aX m c) (aW m c) (aB m c)
    ((W1_keep m ρ c main_arg0 (by decide)).trans rfl)
    (fun k j => host0_v0 (W0 m ρ c) k j)
    (fun j => host0_v1 (W0 m ρ c) j))
theorem W3_v2 (c : Dev nD) : (W3 m ρ c (Proc.devRef .tc main_v2) : Arr (Sh 8192 256)) = kH m c :=
  (W3_in m ρ c 2 rfl).trans (W2_v2 m ρ c)
theorem W3_v3 (c : Dev nD) :
    (W3 m ρ c (Proc.devRef .tc main_v3) : Arr (Sh 8192 512)) = Cert.Spec.agg1 (aA1 m c) (aA2 m c) (kH m c) :=
  (W3_arr m ρ c 3).trans (final1 (V2 m ρ) c (aA1 m c) (aA2 m c) (kH m c) (W2_arg1 m ρ c) (W2_arg2 m ρ c) (W2_v2 m ρ c))
theorem W6_v22 (c : Dev nD) : (W6 m ρ c (Proc.devRef .tc main_v22) : Arr (Sh 8192 512)) = kZ m c := by
  refine (bn_chain (W3 m ρ c)).trans ?_
  rw [W3_v3 m ρ c, W3_other m ρ c main_arg5 (by decide) (by decide) (by decide),
    W3_other m ρ c main_arg6 (by decide) (by decide) (by decide)]
  rfl
theorem W6_v2 (c : Dev nD) : (W6 m ρ c (Proc.devRef .tc main_v2) : Arr (Sh 8192 256)) = kH m c :=
  (W6_keep3 m ρ c main_v2 (by decide) (by decide) (by decide)).trans (W3_v2 m ρ c)
theorem W7_v23 (c : Dev nD) : (W7 m ρ c (Proc.devRef .tc main_v23) : Arr (Sh 8192 1024)) = kZ2 m c :=
  (W7_arr m ρ c 3).trans (final2 (V6 m ρ) c (aA1 m c) (aA2 m c) (kZ m c) (W6_arg1 m ρ c) (W6_arg2 m ρ c) (W6_v22 m ρ c))
theorem W7_v22 (c : Dev nD) : (W7 m ρ c (Proc.devRef .tc main_v22) : Arr (Sh 8192 512)) = kZ m c :=
  (W7_in m ρ c 2 rfl).trans (W6_v22 m ρ c)
theorem W7_v2 (c : Dev nD) : (W7 m ρ c (Proc.devRef .tc main_v2) : Arr (Sh 8192 256)) = kH m c :=
  (W7_of_ne m ρ c main_v2 (by decide)).trans (W6_v2 m ρ c)
theorem W7_args (c : Dev nD) : W7 m ρ c (Proc.devRef .tc main_arg7) = m ((c : Thread nD τ).loc main_arg7)
    ∧ W7 m ρ c (Proc.devRef .tc main_arg8) = m ((c : Thread nD τ).loc main_arg8) := by
  constructor <;> exact (W7_of_ne m ρ c _ (by decide)).trans ((W6_keep3 m ρ c _ (by decide) (by decide) (by decide)).trans
    (W3_other m ρ c _ (by decide) (by decide) (by decide)))
theorem W9_v31 (c : Dev nD) : (W9 m ρ c (Proc.devRef .tc main_v31) : Arr (Sh 8192 64)) = kOut m c :=
  (W9_arr m ρ c 7).trans (final3 (V8 m ρ) c (kH m c) (kZ m c) (kZ2 m c) (aWf m c) (aBf m c)
    ((W8_keep m ρ c main_v2 (by decide)).trans (W7_v2 m ρ c))
    ((W8_keep m ρ c main_v22 (by decide)).trans (W7_v22 m ρ c))
    ((W8_keep m ρ c main_v23 (by decide)).trans (W7_v23 m ρ c))
    (fun k o => (host3_v25 (W7 m ρ c) k o).trans (congrFun (W7_args m ρ c).1 _))
    (fun k o => (host3_v27 (W7 m ρ c) k o).trans (congrFun (W7_args m ρ c).1 _))
    (fun k o => (host3_v29 (W7 m ρ c) k o).trans (congrFun (W7_args m ρ c).1 _))
    (fun o => (host3_v30 (W7 m ρ c) o).trans (congrFun (W7_args m ρ c).2 _)))
theorem value_run : θ_run defs (onTc (τ := τ) (main (F := Ideal))) ⟨m, fun _ => 0, ρ⟩ (fun r => ∀ c : Dev nD,
      r.2.mem ((c.tc : Thread nD τ).loc main_v31) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v31 (by decide))).trans (W9_v31 m ρ c),
     (h c _ (mem_uc main_arg0 (by decide))).trans (W9_arg0 m ρ c),
     (h c _ (mem_uc main_arg1 (by decide))).trans (W9_arg1 m ρ c),
     (h c _ (mem_uc main_arg2 (by decide))).trans (W9_arg2 m ρ c),
     (h c _ (mem_uc main_arg3 (by decide))).trans (W9_arg3 m ρ c),
     (h c _ (mem_uc main_arg4 (by decide))).trans (W9_arg4 m ρ c),
     (h c _ (mem_uc main_arg5 (by decide))).trans (W9_arg5 m ρ c),
     (h c _ (mem_uc main_arg6 (by decide))).trans (W9_arg6 m ρ c),
     (h c _ (mem_uc main_arg7 (by decide))).trans (W9_arg7 m ρ c),
     (h c _ (mem_uc main_arg8 (by decide))).trans (W9_arg8 m ρ c)⟩) (run_main m ρ)
end Cert.KernelIdeal.H
end
-- ==== Proof.Ref.Run.lean ====
import proofs.«115011_j33217277067916_1_alg».proof.Proof.Ref.Stages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

abbrev opsH : List (HloOp τ sig (Elt F)) :=
  [ unary main_arg3 main_v0 (transpose S512x256 [1, 0] · transposes_S256x512_S512x256_1_0),
    binary main_arg0 main_v0 main_v1 (fun l r => Host.dotGeneral dot_S8192x512_S512x256_S8192x256_1_0_0_1_n_n none l r),
    unary main_arg4 main_v2 (broadcastInDim S1x256 ![1] bcast_S256_S1x256_1),
    unary main_v2 main_v3 (broadcastInDim S8192x256 ![0, 1] bcast_S1x256_S8192x256_0_1),
    binary main_v1 main_v3 main_v4 addf,
    TRef.nullary main_call0.cst (constant S_ .f32 0x00000000#32),
    TRef.unary main_call0.cst main_call0.v0 (broadcastInDim S8192x256 ![] bcast_S_S8192x256),
    TRef.binary (.of main_v4) main_call0.v0 main_call0.v1 maximumf ]

abbrev opsC1 : List (HloOp τ sig (Elt F)) :=
  [ binary main_arg1 main_v5 main_v6 (fun l r => Host.dotGeneral dot_S8192x8192_S8192x256_S8192x256_1_0_0_1_n_n none l r),
    binary main_arg2 main_v5 main_v7 (fun l r => Host.dotGeneral dot_S8192x8192_S8192x256_S8192x256_1_0_0_1_n_n none l r),
    binary main_v6 main_v7 main_v8 (fun a b => concatenate S8192x512 1 [⟨S8192x256, a⟩, ⟨S8192x256, b⟩] concatenates_S8192x256_S8192x256_S8192x512_d1) ]

abbrev opsBn : List (HloOp τ sig (Elt F)) :=
  [ nullary main_cst (constant S_ .f32 0x00000000#32),
    binary main_v8 main_cst main_v9 (fun x v => Host.reduceAdd x v reducesTo_S8192x512_S512_d0 h_S_),
    nullary main_cst_0 (constant S_ .f32 0x46000000#32),
    unary main_cst_0 main_v10 (broadcastInDim S512 ![] bcast_S_S512),
    binary main_v9 main_v10 main_v11 Host.divf,
    nullary main_c (constantI S_ 32 0#32),
    TRef.nullary main_call1.cst (constant S_ .f32 0x00000000#32),
    TRef.binary (.of main_v8) main_call1.cst main_call1.v0 (fun x v => Host.reduceAdd x v reducesTo_S8192x512_S512_d0 h_S_),
    TRef.unary main_call1.v0 main_call1.v1 (broadcastInDim S1x512 ![1] bcast_S512_S1x512_1),
    TRef.nullary main_call1.cst_0 (constant S_ .f32 0x46000000#32),
    TRef.unary main_call1.cst_0 main_call1.v2 (broadcastInDim S1x512 ![] bcast_S_S1x512),
    TRef.binary main_call1.v1 main_call1.v2 main_call1.v3 Host.divf,
    TRef.unary main_call1.v3 main_call1.v4 (broadcastInDim S8192x512 ![0, 1] bcast_S1x512_S8192x512_0_1),
    TRef.binary (.of main_v8) main_call1.v4 main_call1.v5 subf,
    TRef.binary main_call1.v5 main_call1.v5 main_call1.v6 mulf,
    TRef.unary (.of main_c) main_call1.v7 (sitofp .f32),
    TRef.nullary main_call1.cst_1 (constant S_ .f32 0x46000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S8192x512_S512_d0 h_S_),
    TRef.unary main_call1.v8 main_call1.v10 (broadcastInDim S512 ![] bcast_S_S512),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S512 ![] bcast_S_S512),
    TRef.ternary main_call1.v12 main_call1.v11 main_call1.call0.v1 main_call1.call0.v2 (fun p a b => select (broadcastInDim S512 ![] bcast_S_S512 p) a b),
    unary main_v11 main_v13 (broadcastInDim S1x512 ![1] bcast_S512_S1x512_1),
    unary main_v13 main_v14 (broadcastInDim S8192x512 ![0, 1] bcast_S1x512_S8192x512_0_1),
    binary main_v8 main_v14 main_v15 subf,
    nullary main_cst_1 (constant S_ .f32 0x3727C5AC#32),
    unary main_cst_1 main_v16 (broadcastInDim S512 ![] bcast_S_S512),
    binary main_v12 main_v16 main_v17 addf,
    unary main_v17 main_v18 Host.rsqrt,
    unary main_v18 main_v19 (broadcastInDim S1x512 ![1] bcast_S512_S1x512_1),
    unary main_v19 main_v20 (broadcastInDim S8192x512 ![0, 1] bcast_S1x512_S8192x512_0_1),
    binary main_v15 main_v20 main_v21 mulf,
    unary main_arg5 main_v22 (broadcastInDim S1x512 ![1] bcast_S512_S1x512_1),
    unary main_v22 main_v23 (broadcastInDim S8192x512 ![0, 1] bcast_S1x512_S8192x512_0_1),
    binary main_v21 main_v23 main_v24 mulf,
    unary main_arg6 main_v25 (broadcastInDim S1x512 ![1] bcast_S512_S1x512_1),
    unary main_v25 main_v26 (broadcastInDim S8192x512 ![0, 1] bcast_S1x512_S8192x512_0_1),
    binary main_v24 main_v26 main_v27 addf ]

abbrev opsC2 : List (HloOp τ sig (Elt F)) :=
  [ binary main_arg1 main_v27 main_v28 (fun l r => Host.dotGeneral dot_S8192x8192_S8192x512_S8192x512_1_0_0_1_n_n none l r),
    binary main_arg2 main_v27 main_v29 (fun l r => Host.dotGeneral dot_S8192x8192_S8192x512_S8192x512_1_0_0_1_n_n none l r),
    binary main_v28 main_v29 main_v30 (fun a b => concatenate S8192x1024 1 [⟨S8192x512, a⟩, ⟨S8192x512, b⟩] concatenates_S8192x512_S8192x512_S8192x1024_d1) ]

abbrev opsOut : List (HloOp τ sig (Elt F)) :=
  [ nary ![main_v5, main_v27, main_v30] main_v31 (fun u => concatenate S8192x1792 1 [⟨S8192x256, u 0⟩, ⟨S8192x512, u 1⟩, ⟨S8192x1024, u 2⟩] concatenates_S8192x256_S8192x512_S8192x1024_S8192x1792_d1),
    unary main_arg7 main_v32 (transpose S1792x64 [1, 0] · transposes_S64x1792_S1792x64_1_0),
    binary main_v31 main_v32 main_v33 (fun l r => Host.dotGeneral dot_S8192x1792_S1792x64_S8192x64_1_0_0_1_n_n none l r),
    unary main_arg8 main_v34 (broadcastInDim S1x64 ![1] bcast_S64_S1x64_1),
    unary main_v34 main_v35 (broadcastInDim S8192x64 ![0, 1] bcast_S1x64_S8192x64_0_1),
    binary main_v33 main_v35 main_v36 addf ]

abbrev ops : List (HloOp τ sig (Elt F)) := opsH ++ (opsC1 ++ (opsBn ++ (opsC2 ++ opsOut)))

set_option maxRecDepth 4096 in
theorem main_eq (c : Dev nD) : main (F := F) c = seq ops := rfl

theorem h_v5 : after opsH W main_v5 = refH (W main_arg0) (W main_arg3) (W main_arg4) := by
  after_results
  rfl

theorem c1_v8 : after opsC1 W main_v8 = refConv1 (W main_arg1) (W main_arg2) (W main_v5) := by
  after_results
  rfl

theorem bn_v27 : after opsBn W main_v27 = bn (W main_v8) (W main_arg5) (W main_arg6) := by
  after_results_simp
  rfl

theorem c2_v30 : after opsC2 W main_v30 = refConv2 (W main_arg1) (W main_arg2) (W main_v27) := by
  after_results
  rfl

theorem out_v36 :
    after opsOut W main_v36 = refOut (W main_v5) (W main_v27) (W main_v30) (W main_arg7) (W main_arg8) := by
  after_results
  rfl

abbrev args : List (Ref sig .tc) :=
  [main_arg0, main_arg1, main_arg2, main_arg3, main_arg4, main_arg5, main_arg6, main_arg7, main_arg8]

/-- No stretch writes an argument. -/
theorem arg_kept (r : Ref sig .tc) (hr : r ∈ args := by decide) :
    after opsH W (no_index (Proc.devRef .tc r)) = W r ∧ after opsC1 W (no_index (Proc.devRef .tc r)) = W r
      ∧ after opsBn W (no_index (Proc.devRef .tc r)) = W r ∧ after opsC2 W (no_index (Proc.devRef .tc r)) = W r
      ∧ after opsOut W (no_index (Proc.devRef .tc r)) = W r := by
  simp only [args, List.mem_cons, List.not_mem_nil, or_false] at hr
  rcases hr with rfl | rfl | rfl | rfl | rfl | rfl | rfl | rfl | rfl <;> refine ⟨?_, ?_, ?_, ?_, ?_⟩ <;> after_results_simp

theorem v5_kept : after opsC2 (after opsBn (after opsC1 W)) main_v5 = W main_v5 := by after_results
theorem v27_kept : after opsC2 W main_v27 = W main_v27 := by after_results

/-- The five stretches composed: each folded by its own lemma, the values read later carried across the lines between. -/
theorem out_eq : after ops W main_v36 =
    let h := refH (W main_arg0) (W main_arg3) (W main_arg4)
    let z := bn (refConv1 (W main_arg1) (W main_arg2) h) (W main_arg5) (W main_arg6)
    refOut h z (refConv2 (W main_arg1) (W main_arg2) z) (W main_arg7) (W main_arg8) := by
  simp only [ops, after_append]
  rw [out_v36, c2_v30, v27_kept, bn_v27, c1_v8, v5_kept, h_v5]
  simp only [arg_kept _ main_arg1, arg_kept _ main_arg2, arg_kept _ main_arg5, arg_kept _ main_arg6, arg_kept _ main_arg7,
    arg_kept _ main_arg8]

theorem args_eq (r : Ref sig .tc) (hr : r ∈ args := by decide) : after ops W r = W r := by
  simp only [ops, after_append, arg_kept _ r hr]

theorem ops_sub : (ops : List (HloOp τ sig (Elt F))).Forall fun op => op.bufs ⊆ tcRefs τ sig := by
  simp only [ops, List.cons_append, List.nil_append, List.Forall, nullary_bufs_sub, unary_bufs_sub, binary_bufs_sub,
    ternary_bufs_sub, nary_bufs_sub, and_self]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = refOut
            (refH (m ((c.tc : Thread nD τ).loc main_arg0)) (m ((c.tc : Thread nD τ).loc main_arg3)) (m ((c.tc : Thread nD τ).loc main_arg4)))
            (bn (refConv1 (m ((c.tc : Thread nD τ).loc main_arg1)) (m ((c.tc : Thread nD τ).loc main_arg2))
                (refH (m ((c.tc : Thread nD τ).loc main_arg0)) (m ((c.tc : Thread nD τ).loc main_arg3)) (m ((c.tc : Thread nD τ).loc main_arg4))))
              (m ((c.tc : Thread nD τ).loc main_arg5)) (m ((c.tc : Thread nD τ).loc main_arg6)))
            (refConv2 (m ((c.tc : Thread nD τ).loc main_arg1)) (m ((c.tc : Thread nD τ).loc main_arg2))
              (bn (refConv1 (m ((c.tc : Thread nD τ).loc main_arg1)) (m ((c.tc : Thread nD τ).loc main_arg2))
                  (refH (m ((c.tc : Thread nD τ).loc main_arg0)) (m ((c.tc : Thread nD τ).loc main_arg3)) (m ((c.tc : Thread nD τ).loc main_arg4))))
                (m ((c.tc : Thread nD τ).loc main_arg5)) (m ((c.tc : Thread nD τ).loc main_arg6))))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v36).trans (out_eq _),
      (h c main_arg0).trans (args_eq _ _), (h c main_arg1).trans (args_eq _ _),
      (h c main_arg2).trans (args_eq _ _), (h c main_arg3).trans (args_eq _ _),
      (h c main_arg4).trans (args_eq _ _), (h c main_arg5).trans (args_eq _ _),
      (h c main_arg6).trans (args_eq _ _), (h c main_arg7).trans (args_eq _ _),
      (h c main_arg8).trans (args_eq _ _)⟩)
    (run_seq (by decide) (by decide) defs main (fun _ => ops) main_eq (fun _ => ops_sub) m ρ)

end Cert.ReferenceIdeal.RefRun

end
-- ==== Proof.Ref.Read.lean ====
import proofs.«115011_j33217277067916_1_alg».proof.Proof.Ref.Stages
import proofs.«115011_j33217277067916_1_alg».proof.Proof.Spec
import Idealize.ShloMosaic.Lib.ValueLayout
import Idealize.ShloMosaic.Lib.Pipeline.Value
import Idealize.ShloMosaic.Lib.StackMember
import Idealize.ShloMosaic.Lib.IdealHost

noncomputable section

namespace Cert.ReferenceIdeal.RefRead

open Cert.ReferenceIdeal Cert.ReferenceIdeal.Gen Cert.ReferenceIdeal.RefRun Idealize.ShloMosaic Idealize.ShloMosaic.ValueIdx
open Cert.Spec (Sh Sh1 Arr)
open scoped BigOperators

theorem dot_embed_plain : dot_S8192x512_S512x256_S8192x256_1_0_0_1_n_n = DotDims.plain 8192 512 256 := rfl
theorem dot_proj_plain : dot_S8192x1792_S1792x64_S8192x64_1_0_0_1_n_n = DotDims.plain 8192 1792 64 := rfl

section Layout
variable {α : Type}

/-- Two matrices that agree at every `(p, q)` are equal. -/
theorem ext2 {m n : ℕ} {f g : (⟨2, ![m, n]⟩ : Shape).Idx → α} (h : ∀ p q, f (ix2 p q) = g (ix2 p q)) : f = g :=
  funext fun j => by rw [eq_ix2 j]; exact h _ _

/-- A vector made a one-row matrix and that row copied down `m` rows reads, at `(p, q)`, the vector at `q`. -/
theorem rowBias_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (p : Fin m) (q : Fin n) :
    broadcastInDim ⟨2, ![m, n]⟩ ![0, 1] h2 (broadcastInDim ⟨2, ![1, n]⟩ ![1] h1 b) (ix2 p q) = b (ix1 q) := by
  rw [broadcastInDim_oneRow_apply]
  refine broadcastInDim_apply ![1] h1 b _ (ix1 q) fun a => ?_
  obtain rfl : a = 0 := Subsingleton.elim _ _
  show q.val = if n = 1 then 0 else q.val
  split_ifs with hn
  · have := q.isLt; omega
  · rfl

/-- Blocks side by side along the columns: column `pre + c`, with `pre` columns before block `k`, reads block `k` at `c`. -/
theorem beside_apply {m n N : ℕ} (xs : List ((s : Shape) × (s.Idx → α)))
    (h : Shape.Concatenates (xs.map (·.1)) ⟨2, ![m, N]⟩ 1) (k : ℕ) (x : (⟨2, ![m, n]⟩ : Shape).Idx → α) (pre : ℕ)
    (p : Fin m) (c : Fin n) (q : Fin N) (hq : pre + c.val = q.val) (hk : k < xs.length := by simp)
    (hxk : xs[k] = ⟨⟨2, ![m, n]⟩, x⟩ := by rfl)
    (hpre : (((xs.take k).map (·.1)).map fun s => if h : s.rank = 2 then s.size ((1 : Fin 2).cast h.symm) else 0).sum = pre := by rfl) :
    concatenate ⟨2, ![m, N]⟩ 1 xs h (ix2 p q) = x (ix2 p c) :=
  concatenate_apply_piece 1 xs h (ix2 p q) k hk _ x hxk rfl pre hpre (ix2 p c)
    (fun b => match b with
      | ⟨0, _⟩ => fun _ => rfl
      | ⟨1, _⟩ => fun hb => absurd rfl hb) hq

end Layout

/-- A sum over 1792 terms as the sums over its first 256, its next 512 and its last 1024. -/
theorem sum_three_groups {M : Type*} [AddCommMonoid M] (f : Fin 1792 → M) :
    ∑ c, f c
      = ((∑ k : Fin 256, f ⟨k.val, by have := k.isLt; omega⟩)
          + (∑ k : Fin 512, f ⟨256 + k.val, by have := k.isLt; omega⟩))
        + (∑ k : Fin 1024, f ⟨768 + k.val, by have := k.isLt; omega⟩) := by
  have e := Fin.sum_univ_add (a := 256 + 512) (b := 1024) (f : Fin (256 + 512 + 1024) → M)
  rw [Fin.sum_univ_add (a := 256) (b := 512)] at e
  exact e

theorem refH_eq (x : Arr (Sh 8192 512)) (w : Arr (Sh 256 512)) (b : Arr (Sh1 256)) :
    refH (F := Ideal) x w b = Cert.Spec.embed x w b := by
  refine ext2 fun p q => ?_
  unfold refH Cert.Spec.embed
  rw [maximumf_apply, addf_apply, dot_embed_plain, StackMember.dotGeneral_plain_apply, rowBias_apply,
    broadcastInDim_scalar_apply, constant_apply]
  refine congrArg (fun s => max (s + b (ix1 q)) Cert.Spec.z0) (Finset.sum_congr rfl fun k _ => ?_)
  rw [transpose_ix2_apply]

/-- Two products with a common right factor laid side by side: the column decides which left factor multiplies it. -/
theorem agg_apply {n N : ℕ} (hc : Shape.Concatenates [Sh 8192 n, Sh 8192 n] (Sh 8192 N) 1)
    (a1 a2 : Arr (Sh 8192 8192)) (f : Arr (Sh 8192 n)) (p : Fin 8192) (q : Fin N) (hN : N ≤ n + n) :
    concatenate (Sh 8192 N) 1 [⟨Sh 8192 n, Host.dotGeneral (DotDims.plain 8192 8192 n) none a1 f⟩,
        ⟨Sh 8192 n, Host.dotGeneral (DotDims.plain 8192 8192 n) none a2 f⟩] hc (ix2 p q)
      = if h : q.val < n then ∑ k : Fin 8192, a1 (ix2 p k) * f (ix2 k (⟨q.val, h⟩ : Fin n))
        else ∑ k : Fin 8192, a2 (ix2 p k) * f (ix2 k (⟨q.val - n, by have := q.isLt; omega⟩ : Fin n)) := by
  split
  · rename_i hq
    exact Eq.trans (beside_apply _ _ 0 _ 0 p ⟨q.val, hq⟩ q (Nat.zero_add _)) (StackMember.dotGeneral_plain_apply ..)
  · rename_i hq
    exact Eq.trans (beside_apply _ _ 1 _ n p ⟨q.val - n, by have := q.isLt; omega⟩ q
      (Nat.add_sub_cancel' (Nat.le_of_not_lt hq))) (StackMember.dotGeneral_plain_apply ..)

theorem refConv1_eq (a1 a2 : Arr (Sh 8192 8192)) (h : Arr (Sh 8192 256)) :
    refConv1 (F := Ideal) a1 a2 h = Cert.Spec.agg1 a1 a2 h :=
  ext2 fun p q => agg_apply _ a1 a2 h p q (by decide)

theorem refConv2_eq (a1 a2 : Arr (Sh 8192 8192)) (z : Arr (Sh 8192 512)) :
    refConv2 (F := Ideal) a1 a2 z = Cert.Spec.agg2 a1 a2 z :=
  ext2 fun p q => agg_apply _ a1 a2 z p q (by decide)

/-- The 1792-deep sum of products falls into the three groups of columns, each read in its own block. -/
theorem refOut_eq (h : Arr (Sh 8192 256)) (z : Arr (Sh 8192 512)) (z2 : Arr (Sh 8192 1024)) (wf : Arr (Sh 64 1792))
    (bf : Arr (Sh1 64)) : refOut (F := Ideal) h z z2 wf bf = Cert.Spec.proj h z z2 wf bf := by
  refine ext2 fun p q => ?_
  unfold refOut Cert.Spec.proj
  rw [addf_apply, dot_proj_plain, StackMember.dotGeneral_plain_apply, rowBias_apply, sum_three_groups]
  refine congrArg (fun s => s + bf (ix1 q)) (congrArg₂ (· + ·) (congrArg₂ (· + ·) ?_ ?_) ?_)
  · exact Finset.sum_congr rfl fun k _ => congrArg₂ (· * ·)
      (beside_apply _ _ 0 h 0 p k _ (Nat.zero_add _)) (transpose_ix2_apply ..)
  · exact Finset.sum_congr rfl fun k _ => congrArg₂ (· * ·)
      (beside_apply _ _ 1 z 256 p k _ rfl) (transpose_ix2_apply ..)
  · exact Finset.sum_congr rfl fun k _ => congrArg₂ (· * ·)
      (beside_apply _ _ 2 z2 768 p k _ rfl) (transpose_ix2_apply ..)

end Cert.ReferenceIdeal.RefRead

end
-- ==== Proof.lean ====
import proofs.«115011_j33217277067916_1_alg».proof.Defs
import proofs.«115011_j33217277067916_1_alg».proof.Proof.Gen.Kernel
import proofs.«115011_j33217277067916_1_alg».proof.Proof.Gen.KernelIdeal
import proofs.«115011_j33217277067916_1_alg».proof.Proof.Gen.ReferenceIdeal
import proofs.«115011_j33217277067916_1_alg».proof.Proof.Gen.Pre_finite_inputs
import proofs.«115011_j33217277067916_1_alg».proof.Proof.K.Frame
import proofs.«115011_j33217277067916_1_alg».proof.Proof.KI.Value
import proofs.«115011_j33217277067916_1_alg».proof.Proof.Ref.Run
import proofs.«115011_j33217277067916_1_alg».proof.Proof.Ref.Read
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.H.frame m ρ

theorem frame_ki : Cert.frame_KernelIdeal (hKernelIdeal := Cert.KernelIdeal.Gen.facts) (hPre_finite_inputs := Cert.Pre_finite_inputs.Gen.facts) :=
  fun m ρ _ => Cert.KernelIdeal.H.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end at one function of their arguments: the kernel program's stages along its run are the reference's stage functions. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.H.kOut m c, Cert.KernelIdeal.H.value_run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [h0, h1, h2, h3, h4, h5, h6, h7, h8]
  rw [Cert.ReferenceIdeal.RefRead.refH_eq, Cert.ReferenceIdeal.RefRead.refConv1_eq, Cert.ReferenceIdeal.RefRead.refConv2_eq,
    Cert.ReferenceIdeal.RefRead.refOut_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
